-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S256x128 : Shape := ⟨2, ![256, 128]⟩
abbrev S1024x1 : Shape := ⟨2, ![1024, 1]⟩
abbrev S1x256 : Shape := ⟨2, ![1, 256]⟩
abbrev S128x256 : Shape := ⟨2, ![128, 256]⟩
abbrev S1024x256 : Shape := ⟨2, ![1024, 256]⟩
abbrev S1024 : Shape := ⟨1, ![1024]⟩
abbrev S_ : Shape := ⟨0, ![]⟩

abbrev nBuf : Space → Nat
  | .hbm => 15
  | .vmem => 36
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S1024x1, .i32⟩
  | .local _ .vmem, ⟨5, _⟩ => ⟨S1024x1, .i32⟩
  | .local _ .vmem, ⟨6, _⟩ => ⟨S1x256, .i32⟩
  | .local _ .vmem, ⟨7, _⟩ => ⟨S1x256, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x128, .f32⟩
  | .local _ .vmem, ⟨16, _⟩ => ⟨S256x128, .f32⟩
  | .local _ .vmem, ⟨17, _⟩ => ⟨S256x128, .f32⟩
  | .local _ .vmem, ⟨18, _⟩ => ⟨S1024x1, .i32⟩
  | .local _ .vmem, ⟨19, _⟩ => ⟨S1024x1, .i32⟩
  | .local _ .vmem, ⟨20, _⟩ => ⟨S1x256, .i32⟩
  | .local _ .vmem, ⟨21, _⟩ => ⟨S1x256, .i32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | .local _ .vmem, ⟨30, _⟩ => ⟨S1024x1, .f32⟩
  | .local _ .vmem, ⟨31, _⟩ => ⟨S1024x1, .f32⟩
  | .local _ .vmem, ⟨32, _⟩ => ⟨S1024x1, .f32⟩
  | .local _ .vmem, ⟨33, _⟩ => ⟨S1024x1, .f32⟩
  | .local _ .vmem, ⟨34, _⟩ => ⟨S1024x1, .f32⟩
  | .local _ .vmem, ⟨35, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc1_scratch4 : Ref sig .tc := ⟨.vmem, 34, rfl⟩
abbrev cc1_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v48 : BitVec 1 := Scalar.cmpi .eq arg1 c31_i32
  let v49 : BitVec 32 := Scalar.extui v48
  let c0_i32_22 : BitVec 32 := 0#32
  let v50 : BitVec 1 := Scalar.cmpi .ne v49 c0_i32_22
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 32], ![false, false]⟩

def k1_cond2 (i : grid1.Coords) : BitVec 1 :=
  let arg1 : BitVec 32 := BitVec.ofNat 32 (i 1).val
  let c31_i32 : BitVec 32 := 31#32
  let v108 : BitVec 1 := Scalar.cmpi .eq arg1 c31_i32
  let v109 : BitVec 32 := Scalar.extui v108
  let c0_i32_54 : BitVec 32 := 0#32
  let v110 : BitVec 1 := Scalar.cmpi .ne v109 c0_i32_54
  v110

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  iota_S1024x1_d0_w32 : S1024x1.Iotas .tc 32 [0]
  iota_S1x256_d1_w32 : S1x256.Iotas .tc 32 [1]
  broadcasts_S1024x1_S1024x256 : S1024x1.Broadcasts S1024x256
  broadcasts_S1x256_S1024x256 : S1x256.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1024x256_S1024 : S1024x256.Reduces [1] S1024
  shapeCasts_S1024_S1024x1 : S1024.ShapeCasts S1024x1
  natLt_1_32 : 1 < 32
  reducesTo_S8192x1_S_d0_1 : S8192x1.ReducesTo [0, 1] S_
  h_S_ : 0 < S_.numel
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .f32 = 32 ∨ (Rect.block (s := S8192x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S8192x128.size a
  hwx1_1 : ∀ i : grid1.Coords, EltTy.bits .f32 = 32 ∨ (Rect.block (s := S8192x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x8192.size a
  hwx1_3 : ∀ i : grid1.Coords, EltTy.bits .i32 = 32 ∨ (Rect.block (s := S1x8192) S1x256.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_0) S1024x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_1) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 106
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x1, .f32⟩
  | .hbm, ⟨34, _⟩ => ⟨S8192x8192, .f32⟩
  | .hbm, ⟨35, _⟩ => ⟨S8192x8192, .i1⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S8192x8192, .f32⟩
  | .hbm, ⟨42, _⟩ => ⟨S8192x8192, .i1⟩
  | .hbm, ⟨43, _⟩ => ⟨S8192x8192, .i1⟩
  | .hbm, ⟨44, _⟩ => ⟨S_, .i1⟩
  | .hbm, ⟨45, _⟩ => ⟨S8192, .i1⟩
  | .hbm, ⟨46, _⟩ => ⟨S8192x1, .i1⟩
  | .hbm, ⟨47, _⟩ => ⟨S8192x8192, .i1⟩
  | .hbm, ⟨48, _⟩ => ⟨S8192x8192, .i1⟩
  | .hbm, ⟨49, _⟩ => ⟨S_, .i1⟩
  | .hbm, ⟨50, _⟩ => ⟨S8192, .i1⟩
  | .hbm, ⟨51, _⟩ => ⟨S8192x1, .i1⟩
  | .hbm, ⟨52, _⟩ => ⟨S8192x8192, .i1⟩
  | .hbm, ⟨53, _⟩ => ⟨S8192x8192, .i1⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S_, .i1⟩
  | .hbm, ⟨89, _⟩ => ⟨S8192, .i1⟩
  | .hbm, ⟨90, _⟩ => ⟨S_, .i1⟩
  | .hbm, ⟨91, _⟩ => ⟨S8192, .i1⟩
  | .hbm, ⟨92, _⟩ => ⟨S8192, .i1⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S_, .f32⟩
  | .hbm, ⟨104, _⟩ => ⟨S_, .f32⟩
  | .hbm, ⟨105, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_call2_v0 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_call3_v0 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_call4_v0 : Ref sig .tc := ⟨.hbm, 62, rfl⟩
abbrev main_call4_v1 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_call5_v0 : Ref sig .tc := ⟨.hbm, 79, rfl⟩
abbrev main_call5_v1 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_c_17 : Ref sig .tc := ⟨.hbm, 88, rfl⟩
abbrev main_v57 : Ref sig .tc := ⟨.hbm, 89, rfl⟩
abbrev main_c_18 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_19 : Ref sig .tc := ⟨.hbm, 95, rfl⟩
abbrev main_v62 : Ref sig .tc := ⟨.hbm, 96, rfl⟩
abbrev main_cst_20 : Ref sig .tc := ⟨.hbm, 97, rfl⟩
abbrev main_v63 : Ref sig .tc := ⟨.hbm, 98, rfl⟩
abbrev main_cst_21 : Ref sig .tc := ⟨.hbm, 99, rfl⟩
abbrev main_call6_v0 : Ref sig .tc := ⟨.hbm, 100, rfl⟩
abbrev main_call6_v1 : Ref sig .tc := ⟨.hbm, 101, rfl⟩
abbrev main_v64 : Ref sig .tc := ⟨.hbm, 102, rfl⟩
abbrev main_cst_22 : Ref sig .tc := ⟨.hbm, 103, rfl⟩
abbrev main_v65 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody0.lean ====
import proofs.«144984_j9225589752058_1_alg».proof.Proof.Gen.Kernel.Launch
import proofs.«144984_j9225589752058_1_alg».proof.Proof.Gen.Kernel.Skeleton
import proofs.«144984_j9225589752058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def first0 (i : grid0.Coords) : Prop :=
  Scalar.cmpi .ne (Scalar.extui (Scalar.cmpi .eq (BitVec.ofNat 32 (i 1).val) 0#32)) 0#32 = 1#1

instance (i : grid0.Coords) : Decidable (first0 i) := by unfold first0; infer_instance

def newMin0 (i : grid0.Coords) (x0 : Vec F S1024x128 .f32) (x1 : Vec F S256x128 .f32) (x2 : Vec F S1024x1 .i32)
    (x3 : Vec F S1x256 .i32) (s8 : Vec F S1024x1 .f32) : Vec F S1024x1 .f32 :=
  k0_pay1 (k0_pay7 i x0 x1 x2 x3) (if first0 i then k0_pay3 (F := F) else s8)

def newMax0 (i : grid0.Coords) (x0 : Vec F S1024x128 .f32) (x1 : Vec F S256x128 .f32) (x2 : Vec F S1024x1 .i32)
    (x3 : Vec F S1x256 .i32) (s9 : Vec F S1024x1 .f32) : Vec F S1024x1 .f32 :=
  k0_pay2 (k0_pay8 x0 x1 x2 x3) (if first0 i then k0_pay4 (F := F) else s9)

theorem off2_zero : (![0, 0] : Fin 2 → ℕ) = fun _ => 0 := by
  funext a; fin_cases a <;> rfl

section whole

variable {κ : Kind} {sp : Space} {e : EltTy} {d : Fin 2 → ℕ}

theorem readAt_whole (v : View sig κ sp ⟨2, d⟩ e) (f : v.ty.Contents (Elt F))
    (inb : ∀ a, (![0, 0] : Fin 2 → ℕ) a + d a ≤ d a) :
    View.readAt (Elt F) v (Rect.unit (s := ⟨2, d⟩) ![0, 0] d inb).toLoadRect f = View.read (Elt F) v f := by
  rw [View.readAt_eq_ld]; exact View.ld_unit_zero (S := ⟨2, d⟩) off2_zero inb _

theorem cover_whole (inb : ∀ a, (![0, 0] : Fin 2 → ℕ) a + d a ≤ d a) (w : Shape.Idx ⟨2, d⟩ → Elt F e)
    (L : List (View.Piece (Elt F) ⟨2, d⟩ e)) (y : Shape.Idx ⟨2, d⟩) :
    ∃ p ∈ (⟨Rect.unit (s := ⟨2, d⟩) ![0, 0] d inb, w⟩ : View.Piece (Elt F) ⟨2, d⟩ e) :: L, y ∈ p.1.set :=
  ⟨⟨Rect.unit (s := ⟨2, d⟩) ![0, 0] d inb, w⟩, List.mem_cons_self, View.mem_set_unit_zero (S := ⟨2, d⟩) off2_zero inb y⟩

theorem read_store_whole (v : View sig κ sp ⟨2, d⟩ e) (f : v.ty.Contents (Elt F))
    (inb : ∀ a, (![0, 0] : Fin 2 → ℕ) a + d a ≤ d a) (w : Shape.Idx ⟨2, d⟩ → Elt F e)
    (L : List (View.Piece (Elt F) ⟨2, d⟩ e)) :
    View.read (Elt F) v (v.writes (Elt F) f (⟨Rect.unit (s := ⟨2, d⟩) ![0, 0] d inb, w⟩ :: L)) = w := by
  rw [View.read_writes_eq_canon _ _ _ (cover_whole inb w L)]
  exact View.canon_cons_unit_zero (S := ⟨2, d⟩) off2_zero inb w L

theorem readCov_store_whole (v : View sig κ sp ⟨2, d⟩ e)
    (inb : ∀ a, (![0, 0] : Fin 2 → ℕ) a + d a ≤ d a) (w : Shape.Idx ⟨2, d⟩ → Elt F e)
    (L : List (View.Piece (Elt F) ⟨2, d⟩ e)) :
    v.readCov (⟨Rect.unit (s := ⟨2, d⟩) ![0, 0] d inb, w⟩ :: L) (Rect.unit (s := ⟨2, d⟩) ![0, 0] d inb).toLoadRect = w := by
  rw [View.readCov_eq_canon_ld _ _ _ (cover_whole inb w L), View.canon_cons_unit_zero (S := ⟨2, d⟩) off2_zero inb w L]
  exact View.ld_unit_zero (S := ⟨2, d⟩) off2_zero inb _

end whole

set_option maxHeartbeats 1000000 in
theorem sound_kernel0 (c : Dev nD) (E : Set ℕ) (i : grid0.Coords)
    (arg2 : Memref sig .tc .vmem S1024x128 .f32) (harg2 : arg2.IsWhole) (arg3 : Memref sig .tc .vmem S256x128 .f32) (harg3 : arg3.IsWhole)
    (arg4 : Memref sig .tc .vmem S1024x1 .i32) (harg4 : arg4.IsWhole) (arg5 : Memref sig .tc .vmem S1x256 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (x0 : Vec F S1024x128 .f32) (x1 : Vec F S256x128 .f32) (x2 : Vec F S1024x1 .i32) (x3 : Vec F S1x256 .i32)
    (d6 d7 s8 s9 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare d6 ∗ owns (c : Thread nD τ) arg7 fullShare d7
        ∗ owns (c : Thread nD τ) arg8 fullShare s8 ∗ owns (c : Thread nD τ) arg9 fullShare s9
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (if k0_cond2 i = 1#1 then newMin0 i x0 x1 x2 x3 s8 else d6)
            ∗ owns (c : Thread nD τ) arg7 fullShare (if k0_cond2 i = 1#1 then newMax0 i x0 x1 x2 x3 s9 else d7)
            ∗ owns (c : Thread nD τ) arg8 fullShare (newMin0 i x0 x1 x2 x3 s8)
            ∗ owns (c : Thread nD τ) arg9 fullShare (newMax0 i x0 x1 x2 x3 s9)) -∗ K ⟨⟩))
      ⊢ wp frame (wpE (defs₀ (F := F)) Variants.none c none) E
          (cc0__pass1_kernel i arg2 harg2 arg3 harg3 arg4 harg4 arg5 harg5 arg6 harg6 arg7 harg7 arg8 harg8 arg9 harg9) K := by
  by_cases h1 : first0 i <;> by_cases h2 : k0_cond2 i = 1#1 <;>
  · first | simp only [newMin0, newMax0, if_neg h1] | simp only [newMin0, newMax0, if_pos h1]
    first | simp only [if_neg h2] | simp only [if_pos h2]
    simp only [cc0__pass1_kernel_eq_skeleton]; unfold cc0__pass1_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf2 hf3 hf4 hf5 hf6 hf7 hf8 hf9
    unfold first0 at h1
    sl_exec (disch := first | exact h1 | exact h2)
    sl_step
    iapply Hk
    isplitl [H2]; swap; isplitl [H3]; swap; isplitl [H4]; swap; isplitl [H5]; swap
    isplitl [H6]; swap; isplitl [H7]; swap; isplitl [H8]; swap
    all_goals
      iexists _; isplitr; swap; iassumption; ipureintro
      first | rfl | (sl_unfold_run_names; simp only [read_store_whole, readCov_store_whole, readAt_whole])

end Cert.Kernel.Hand

end
-- ==== Proof.KDat0.lean ====
import proofs.«144984_j9225589752058_1_alg».proof.Proof.Gen.Kernel.Launch
import proofs.«144984_j9225589752058_1_alg».proof.Proof.Gen.Kernel.Points
import proofs.«144984_j9225589752058_1_alg».proof.Proof.KBody0
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- Running row minima and maxima over the first n tiles; a row's first tile restarts them, so the seed is arbitrary.
def sc0 (c : Dev nD) : ℕ → Vec F S1024x1 .f32 × Vec F S1024x1 .f32
  | 0 => (k0_pay3 (F := F), k0_pay4 (F := F))
  | n + 1 =>
    if h : n < cfg0.N then
      (newMin0 (grid0.coords ⟨n, h⟩) (iblk0 V c 0 ⟨n, h⟩) (iblk0 V c 1 ⟨n, h⟩) (iblk0 V c 2 ⟨n, h⟩) (iblk0 V c 3 ⟨n, h⟩) (sc0 c n).1,
       newMax0 (grid0.coords ⟨n, h⟩) (iblk0 V c 0 ⟨n, h⟩) (iblk0 V c 1 ⟨n, h⟩) (iblk0 V c 2 ⟨n, h⟩) (iblk0 V c 3 ⟨n, h⟩) (sc0 c n).2)
    else sc0 c n

theorem sc0_succ (c : Dev nD) (t : Fin cfg0.N) :
    sc0 V c (t.val + 1) =
      (newMin0 (grid0.coords t) (iblk0 V c 0 t) (iblk0 V c 1 t) (iblk0 V c 2 t) (iblk0 V c 3 t) (sc0 V c t.val).1,
       newMax0 (grid0.coords t) (iblk0 V c 0 t) (iblk0 V c 1 t) (iblk0 V c 2 t) (iblk0 V c 3 t) (sc0 V c t.val).2) := by
  rw [sc0]; exact dif_pos t.isLt

-- Loop invariant: away from a row start the two columns equal sc0 n.
def dat0_inv (c : Dev nD) (n : ℕ) : sProp 𝕄 :=
  iprop(∃ s8 s9 : Vec F S1024x1 .f32, ⌜n % 32 ≠ 0 → s8 = (sc0 V c n).1 ∧ s9 = (sc0 V c n).2⌝
      ∗ (((c : Thread nD τ).loc cc0_scratch0) ↦{fullShare} s8) ∗ (((c : Thread nD τ).loc cc0_scratch1) ↦{fullShare} s9)
      ∗ (∃ r, prngReg c r)
      ∗ (iprop((∃ f, ((c : Thread nD τ).loc cc0_scratch0) ↦{fullShare} f) ∗ (∃ f, ((c : Thread nD τ).loc cc0_scratch1) ↦{fullShare} f))
          -∗ Pipeline.scopedRest (Ix := Unit) (Name := ℕ) (U := UR sig nD τ) (Lvl := ℕ) (Val := Elt F) spec0 c))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (sc0 V c (t.val + 1)).1
    | ⟨5, _⟩ => (sc0 V c (t.val + 1)).2
  Φ t := dat0_inv V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem dat0_Φ_eq (c : Dev nD) (t : Fin (cfg0.N + 1)) : (dat0 V c).Φ t = dat0_inv V c t.val := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (sc0 V c (t.val + 1)).1 := by dsimp only [dat0]
theorem after0_5 (c : Dev nD) (t : Fin cfg0.N) : (dat0 V c).after 5 t = (sc0 V c (t.val + 1)).2 := by dsimp only [dat0]

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t) := by
  refine ⟨?_, ?_, ?_, ?_⟩ <;> intro d <;>
    exact ((dat0 V c).before_in_eq_fetched _ rfl (fun _ => rfl) (fun _ _ _ => rfl)
      (fun t => by dsimp only [dat0, Dat.blockOf, iblk0]; try rfl) t d).trans (by dsimp only [Dat.fetched, Dat.blockOf, iblk0, dat0]; try rfl)

theorem first0_iff : ∀ t : Fin cfg0.N, first0 (grid0.coords t) ↔ t.val % 32 = 0 := by decide +kernel
theorem last0_iff : ∀ t : Fin cfg0.N, k0_cond2 (grid0.coords t) = 1#1 ↔ t.val % 32 = 31 := by decide +kernel
theorem idle0_45 : ∀ t : Fin cfg0.N, cfg0.idle 4 (cfg0.grid.coords t) = !decide (t.val % 32 = 31) ∧ cfg0.idle 5 (cfg0.grid.coords t) = !decide (t.val % 32 = 31) := by
  decide +kernel

-- A row's first tile ignores the old columns; elsewhere they already equal sc0 t.
theorem dat0_step (c : Dev nD) (t : Fin cfg0.N) (s8 s9 : Vec F S1024x1 .f32)
    (h : t.val % 32 ≠ 0 → s8 = (sc0 V c t.val).1 ∧ s9 = (sc0 V c t.val).2) :
    newMin0 (grid0.coords t) (iblk0 V c 0 t) (iblk0 V c 1 t) (iblk0 V c 2 t) (iblk0 V c 3 t) s8 = (sc0 V c (t.val + 1)).1
      ∧ newMax0 (grid0.coords t) (iblk0 V c 0 t) (iblk0 V c 1 t) (iblk0 V c 2 t) (iblk0 V c 3 t) s9 = (sc0 V c (t.val + 1)).2 := by
  rw [sc0_succ]
  by_cases h0 : t.val % 32 = 0
  · constructor <;> simp only [newMin0, newMax0, if_pos ((first0_iff t).2 h0)]
  · obtain ⟨rfl, rfl⟩ := h h0
    exact ⟨rfl, rfl⟩

theorem leaves0 (c : Dev nD) (t : Fin cfg0.N) {w : Fin cfg0.W} (hw : w = 4 ∨ w = 5) (d) :
    owns (c : Thread nD τ) ((cfg0.win w).stage (cfg0.slots t w)) fullShare
        (if k0_cond2 (grid0.coords t) = 1#1 then (dat0 V c).after w t else (dat0 V c).before w t d)
      ⊢ ((dat0 V c).leavesExact w t : sProp 𝕄) := by
  have hi : cfg0.idle w (cfg0.grid.coords t) = !decide (t.val % 32 = 31) := by
    rcases hw with rfl | rfl; exacts [(idle0_45 t).1, (idle0_45 t).2]
  have hf : (cfg0.win w).flush t = true ↔ t.val % 32 = 31 := by rcases hw with rfl | rfl; exacts [flush0_4 t, flush0_5 t]
  by_cases hl : t.val % 32 = 31
  · rw [if_pos ((last0_iff t).2 hl)]; unfold Dat.leavesExact; rw [hi, decide_eq_true hl]; exact .rfl
  · rw [if_neg fun h => hl ((last0_iff t).1 h),
      (dat0 V c).leavesExact_idle w t (by rw [hi, decide_eq_false hl]; rfl) (Bool.eq_false_iff.2 fun h => hl (hf.1 h))]
    iintro H; iexists _; iexact H

theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ (dat0 V c).leavesExact 4 t ∗ (dat0 V c).leavesExact 5 t)) := by
  obtain ⟨b0, b1, b2, b3⟩ := before0 V c t
  simp only [b0, b1, b2, b3]
  rw [dat0_Φ_eq, dat0_Φ_eq, Fin.coe_castSucc, Fin.val_succ, after0_0, after0_1, after0_2, after0_3,
    show (dat0 V c).owesAt () t.succ = (dat0 V c).owesAt () t.castSucc from rfl]
  unfold dat0_inv
  iintro ⟨⟨%s8, %s9, %hs, H8, H9, Hp, Hw⟩, HO, ⟨%d0, H0⟩, ⟨%d1, H1⟩, ⟨%d2, H2⟩, ⟨%d3, H3⟩, ⟨%d4, H4⟩, ⟨%d5, H5⟩⟩
  obtain ⟨e8, e9⟩ := dat0_step V c t s8 s9 hs
  have l4 := leaves0 V c t (.inl rfl) d4; rw [after0_4] at l4
  have l5 := leaves0 V c t (.inr rfl) d5; rw [after0_5] at l5
  iapply (sound_kernel0 c Set.univ (grid0.coords t) _ _ _ _ _ _ _ _ _ _ _ _ _ _ _ _
    (iblk0 V c 0 t) (iblk0 V c 1 t) (iblk0 V c 2 t) (iblk0 V c 3 t) ((dat0 V c).before 4 t d4) ((dat0 V c).before 5 t d5) s8 s9 _)
  simp only [e8, e9, owns_whole]
  iframe
  iintro ⟨H0, H1, H2, H3, H4, H5, H8, H9⟩
  iframe
  isplitr [H4 H5]
  · iexists _; iexists _; iframe; ipureintro; exact fun _ => ⟨rfl, rfl⟩
  isplitl [H4]
  · iapply l4; iexact H4
  · iapply l5; iexact H5

theorem body_obligation0 (c : Dev nD) : BodyObligation (dat0 (F := F) V c) (defs₀ (F := F)) Variants.none () Set.univ := fun t => by
  rw [bigSep_W0, bigSep_W0]
  exact sound_body0 V c t

theorem phi0_in (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  dsimp only [dat0, dat0_inv]
  rw [scopedRest0_eq]
  iintro ⟨Hp, ⟨%s8, H8⟩, ⟨%s9, H9⟩, Hrest⟩
  iexists s8; iexists s9
  iframe
  isplitr
  · ipureintro; intro h; exact absurd rfl h
  iintro ⟨H8, H9⟩
  iframe

theorem phi0_out (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  dsimp only [dat0, dat0_inv]
  iintro ⟨%s8, %s9, -, H8, H9, Hp, Hw⟩
  isplitl [Hp]; · iexact Hp
  iapply Hw
  isplitl [H8] <;> iexists _ <;> iassumption

end Cert.Kernel.Hand

end
-- ==== Proof.KBody1.lean ====
import proofs.«144984_j9225589752058_1_alg».proof.Proof.KBody0

noncomputable section

namespace Cert.Kernel.Hand

open Cert.Kernel.Gen
open Idealize.ShloMosaic Idealize.ShloMosaic.TcCoe
open Idealize.SL.RA Idealize.SL.BI Idealize.SL.BI.BIBase Idealize.SL.Sem

variable {F : FTy → Type} [FloatOps F]

def first1 (i : grid1.Coords) : Prop :=
  Scalar.cmpi .ne (Scalar.extui (Scalar.cmpi .eq (BitVec.ofNat 32 (i 1).val) 0#32)) 0#32 = 1#1

instance (i : grid1.Coords) : Decidable (first1 i) := by unfold first1; infer_instance

section
variable (i : grid1.Coords) (x0 : Vec F S1024x128 .f32) (x1 : Vec F S256x128 .f32) (x2 : Vec F S1024x1 .i32) (x3 : Vec F S1x256 .i32) (x4 x5 : Vec F S1024x1 .f32)

def newPosHard (s10 : Vec F S1024x1 .f32) : Vec F S1024x1 .f32 :=
  k1_pay22 (k1_pay10 x0 x1) (k1_pay12 i x2 x3) (k1_pay15 x5) (if first1 i then k1_pay4 (F := F) else s10)
def newPosAll (s11 : Vec F S1024x1 .f32) : Vec F S1024x1 .f32 :=
  k1_pay23 (k1_pay10 x0 x1) (k1_pay12 i x2 x3) (if first1 i then k1_pay5 (F := F) else s11)
def newAnyPos (s12 : Vec F S1024x1 .f32) : Vec F S1024x1 .f32 :=
  k1_pay27 (k1_pay19 (k1_pay10 x0 x1) (k1_pay12 i x2 x3) (k1_pay15 x5)) (if first1 i then k1_pay6 (F := F) else s12)
def newNegHard (s13 : Vec F S1024x1 .f32) : Vec F S1024x1 .f32 :=
  k1_pay25 (if first1 i then k1_pay7 (F := F) else s13) (k1_pay24 (k1_pay10 x0 x1) (k1_pay13 x2 x3) (k1_pay16 x0 x1) (k1_pay17 x4))
def newNegAll (s14 : Vec F S1024x1 .f32) : Vec F S1024x1 .f32 :=
  k1_pay26 (k1_pay13 x2 x3) (k1_pay21 (k1_pay10 x0 x1)) (if first1 i then k1_pay8 (F := F) else s14)
def newAnyNeg (s15 : Vec F S1024x1 .f32) : Vec F S1024x1 .f32 :=
  k1_pay28 (k1_pay18 (k1_pay13 x2 x3) (k1_pay16 x0 x1) (k1_pay17 x4)) (if first1 i then k1_pay9 (F := F) else s15)
def lossOut (s10 s11 s12 s13 s14 s15 : Vec F S1024x1 .f32) : Vec F S1024x1 .f32 :=
  k1_pay2 (k1_pay14 x4) (k1_pay15 x5) (newAnyPos i x0 x1 x2 x3 x5 s12) (newPosHard i x0 x1 x2 x3 x5 s10) (newPosAll i x0 x1 x2 x3 s11)
    (newAnyNeg i x0 x1 x2 x3 x4 s15) (newNegHard i x0 x1 x2 x3 x4 s13) (newNegAll i x0 x1 x2 x3 s14)
def validOut : Vec F S1024x1 .f32 := k1_pay3 (k1_pay14 x4) (k1_pay15 x5)
end

-- Both conditions depend on the grid point alone; in each of the four cases every block ends at the payload of its last store, or as found.
set_option maxHeartbeats 1000000 in
theorem sound_kernel1 (c : Dev nD) (E : Set ℕ) (i : grid1.Coords)
    (arg2 : Memref sig .tc .vmem S1024x128 .f32) (harg2 : arg2.IsWhole) (arg3 : Memref sig .tc .vmem S256x128 .f32) (harg3 : arg3.IsWhole)
    (arg4 : Memref sig .tc .vmem S1024x1 .i32) (harg4 : arg4.IsWhole) (arg5 : Memref sig .tc .vmem S1x256 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (arg12 : Memref sig .tc .vmem S1024x1 .f32) (harg12 : arg12.IsWhole) (arg13 : Memref sig .tc .vmem S1024x1 .f32) (harg13 : arg13.IsWhole)
    (arg14 : Memref sig .tc .vmem S1024x1 .f32) (harg14 : arg14.IsWhole) (arg15 : Memref sig .tc .vmem S1024x1 .f32) (harg15 : arg15.IsWhole)
    (x0 : Vec F S1024x128 .f32) (x1 : Vec F S256x128 .f32) (x2 : Vec F S1024x1 .i32) (x3 : Vec F S1x256 .i32) (x4 x5 : Vec F S1024x1 .f32)
    (d8 d9 s10 s11 s12 s13 s14 s15 : Vec F S1024x1 .f32) (K : PUnit → sProp (MT nD τ sig Unit (Elt F) ℕ (UR sig nD τ) ℕ)) :
    iprop(owns c arg2 fullShare x0 ∗ owns c arg3 fullShare x1
        ∗ owns c arg4 fullShare x2 ∗ owns c arg5 fullShare x3
        ∗ owns c arg6 fullShare x4 ∗ owns c arg7 fullShare x5
        ∗ owns c arg8 fullShare d8 ∗ owns c arg9 fullShare d9
        ∗ owns c arg10 fullShare s10 ∗ owns c arg11 fullShare s11
        ∗ owns c arg12 fullShare s12 ∗ owns c arg13 fullShare s13
        ∗ owns c arg14 fullShare s14 ∗ owns c arg15 fullShare s15
        ∗ (iprop(owns c arg2 fullShare x0 ∗ owns c arg3 fullShare x1
            ∗ owns c arg4 fullShare x2 ∗ owns c arg5 fullShare x3
            ∗ owns c arg6 fullShare x4 ∗ owns c arg7 fullShare x5
            ∗ owns c arg8 fullShare (if k1_cond2 i = 1#1 then lossOut i x0 x1 x2 x3 x4 x5 s10 s11 s12 s13 s14 s15 else d8)
            ∗ owns c arg9 fullShare (if k1_cond2 i = 1#1 then validOut (F := F) x4 x5 else d9)
            ∗ owns c arg10 fullShare (newPosHard i x0 x1 x2 x3 x5 s10)
            ∗ owns c arg11 fullShare (newPosAll i x0 x1 x2 x3 s11)
            ∗ owns c arg12 fullShare (newAnyPos i x0 x1 x2 x3 x5 s12)
            ∗ owns c arg13 fullShare (newNegHard i x0 x1 x2 x3 x4 s13)
            ∗ owns c arg14 fullShare (newNegAll i x0 x1 x2 x3 s14)
            ∗ owns c arg15 fullShare (newAnyNeg i x0 x1 x2 x3 x4 s15)) -∗ K ⟨⟩))
      ⊢ wp frame (wpE (defs₀ (F := F)) Variants.none c none) E
          (cc1__pass2_kernel i arg2 harg2 arg3 harg3 arg4 harg4 arg5 harg5 arg6 harg6 arg7 harg7 arg8 harg8 arg9 harg9
            arg10 harg10 arg11 harg11 arg12 harg12 arg13 harg13 arg14 harg14 arg15 harg15) K := by
  by_cases h1 : first1 i <;> by_cases h2 : k1_cond2 i = 1#1 <;>
  · simp only [lossOut, validOut, newPosHard, newPosAll, newAnyPos, newNegHard, newNegAll, newAnyNeg, h1, h2, if_true, if_false]
    simp only [cc1__pass2_kernel_eq_skeleton]; unfold cc1__pass2_kernel_skel owns
    iintro ⟨⟨%_, %_, H2⟩, ⟨%_, %_, H3⟩, ⟨%_, %_, H4⟩, ⟨%_, %_, H5⟩, ⟨%_, %_, H6⟩, ⟨%_, %_, H7⟩, ⟨%_, %_, H8⟩, ⟨%_, %_, H9⟩, ⟨%_, %_, H10⟩, ⟨%_, %_, H11⟩, ⟨%_, %_, H12⟩, ⟨%_, %_, H13⟩, ⟨%_, %_, H14⟩, ⟨%_, %_, H15⟩, Hk⟩
    subst_vars
    unfold first1 at h1
    sl_exec (disch := assumption)
    sl_step
    iapply Hk
    isplitl [H2]; swap; isplitl [H3]; swap; isplitl [H4]; swap; isplitl [H5]; swap
    isplitl [H6]; swap; isplitl [H7]; swap; isplitl [H8]; swap; isplitl [H9]; swap
    isplitl [H10]; swap; isplitl [H11]; swap; isplitl [H12]; swap; isplitl [H13]; swap; isplitl [H14]; swap
    all_goals
      iexists _; isplitr; swap; iassumption; ipureintro
      first | rfl | (sl_unfold_run_names; simp only [read_store_whole, readCov_store_whole, readAt_whole])

end Cert.Kernel.Hand

end
-- ==== Proof.KDat1.lean ====
import proofs.«144984_j9225589752058_1_alg».proof.Proof.Gen.Kernel.Launch
import proofs.«144984_j9225589752058_1_alg».proof.Proof.Gen.Kernel.Points
import proofs.«144984_j9225589752058_1_alg».proof.Proof.KBody1
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

noncomputable def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

structure Cols (F : FTy → Type) [FloatOps F] where
  posHard : Vec F S1024x1 .f32
  posAll : Vec F S1024x1 .f32
  anyPos : Vec F S1024x1 .f32
  negHard : Vec F S1024x1 .f32
  negAll : Vec F S1024x1 .f32
  anyNeg : Vec F S1024x1 .f32

def sc1 : ℕ → Cols F
  | 0 => ⟨k1_pay4 (F := F), k1_pay5 (F := F), k1_pay6 (F := F), k1_pay7 (F := F), k1_pay8 (F := F), k1_pay9 (F := F)⟩
  | n + 1 =>
    if h : n < cfg1.N then
      ⟨newPosHard (grid1.coords ⟨n, h⟩) (iblk1 V c 0 ⟨n, h⟩) (iblk1 V c 1 ⟨n, h⟩) (iblk1 V c 2 ⟨n, h⟩) (iblk1 V c 3 ⟨n, h⟩) (iblk1 V c 5 ⟨n, h⟩) (sc1 n).posHard,
       newPosAll (grid1.coords ⟨n, h⟩) (iblk1 V c 0 ⟨n, h⟩) (iblk1 V c 1 ⟨n, h⟩) (iblk1 V c 2 ⟨n, h⟩) (iblk1 V c 3 ⟨n, h⟩) (sc1 n).posAll,
       newAnyPos (grid1.coords ⟨n, h⟩) (iblk1 V c 0 ⟨n, h⟩) (iblk1 V c 1 ⟨n, h⟩) (iblk1 V c 2 ⟨n, h⟩) (iblk1 V c 3 ⟨n, h⟩) (iblk1 V c 5 ⟨n, h⟩) (sc1 n).anyPos,
       newNegHard (grid1.coords ⟨n, h⟩) (iblk1 V c 0 ⟨n, h⟩) (iblk1 V c 1 ⟨n, h⟩) (iblk1 V c 2 ⟨n, h⟩) (iblk1 V c 3 ⟨n, h⟩) (iblk1 V c 4 ⟨n, h⟩) (sc1 n).negHard,
       newNegAll (grid1.coords ⟨n, h⟩) (iblk1 V c 0 ⟨n, h⟩) (iblk1 V c 1 ⟨n, h⟩) (iblk1 V c 2 ⟨n, h⟩) (iblk1 V c 3 ⟨n, h⟩) (sc1 n).negAll,
       newAnyNeg (grid1.coords ⟨n, h⟩) (iblk1 V c 0 ⟨n, h⟩) (iblk1 V c 1 ⟨n, h⟩) (iblk1 V c 2 ⟨n, h⟩) (iblk1 V c 3 ⟨n, h⟩) (iblk1 V c 4 ⟨n, h⟩) (sc1 n).anyNeg⟩
    else sc1 n

theorem sc1_succ (t : Fin cfg1.N) :
    sc1 V c (t.val + 1) =
      ⟨newPosHard (grid1.coords t) (iblk1 V c 0 t) (iblk1 V c 1 t) (iblk1 V c 2 t) (iblk1 V c 3 t) (iblk1 V c 5 t) (sc1 V c t.val).posHard,
       newPosAll (grid1.coords t) (iblk1 V c 0 t) (iblk1 V c 1 t) (iblk1 V c 2 t) (iblk1 V c 3 t) (sc1 V c t.val).posAll,
       newAnyPos (grid1.coords t) (iblk1 V c 0 t) (iblk1 V c 1 t) (iblk1 V c 2 t) (iblk1 V c 3 t) (iblk1 V c 5 t) (sc1 V c t.val).anyPos,
       newNegHard (grid1.coords t) (iblk1 V c 0 t) (iblk1 V c 1 t) (iblk1 V c 2 t) (iblk1 V c 3 t) (iblk1 V c 4 t) (sc1 V c t.val).negHard,
       newNegAll (grid1.coords t) (iblk1 V c 0 t) (iblk1 V c 1 t) (iblk1 V c 2 t) (iblk1 V c 3 t) (sc1 V c t.val).negAll,
       newAnyNeg (grid1.coords t) (iblk1 V c 0 t) (iblk1 V c 1 t) (iblk1 V c 2 t) (iblk1 V c 3 t) (iblk1 V c 4 t) (sc1 V c t.val).anyNeg⟩ := by
  rw [sc1]; exact dif_pos t.isLt

def some1 (b : Ref sig .tc) : sProp 𝕄 := iprop(∃ f : Buf (Elt F) ((c : Thread nD τ).loc b), ((c : Thread nD τ).loc b) ↦{fullShare} f)

-- The six columns at some contents, which away from a row's first tile are the recursion's values.
def Phi1 (n : ℕ) : sProp 𝕄 :=
  iprop(∃ s10 s11 s12 s13 s14 s15 : Vec F S1024x1 .f32,
      ⌜n % 32 ≠ 0 → s10 = (sc1 V c n).posHard ∧ s11 = (sc1 V c n).posAll ∧ s12 = (sc1 V c n).anyPos ∧ s13 = (sc1 V c n).negHard ∧ s14 = (sc1 V c n).negAll ∧ s15 = (sc1 V c n).anyNeg⌝
      ∗ (((c : Thread nD τ).loc cc1_scratch0) ↦{fullShare} s10) ∗ (((c : Thread nD τ).loc cc1_scratch1) ↦{fullShare} s11) ∗ (((c : Thread nD τ).loc cc1_scratch2) ↦{fullShare} s12) ∗ (((c : Thread nD τ).loc cc1_scratch3) ↦{fullShare} s13) ∗ (((c : Thread nD τ).loc cc1_scratch4) ↦{fullShare} s14) ∗ (((c : Thread nD τ).loc cc1_scratch5) ↦{fullShare} s15)
      ∗ (∃ r, prngReg c r)
      ∗ (iprop(some1 c cc1_scratch0 ∗ some1 c cc1_scratch1 ∗ some1 c cc1_scratch2 ∗ some1 c cc1_scratch3 ∗ some1 c cc1_scratch4 ∗ some1 c cc1_scratch5)
          -∗ Pipeline.scopedRest (Ix := Unit) (Name := ℕ) (U := UR sig nD τ) (Lvl := ℕ) (Val := Elt F) spec1 c))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => lossOut (grid1.coords t) (iblk1 V c 0 t) (iblk1 V c 1 t) (iblk1 V c 2 t) (iblk1 V c 3 t) (iblk1 V c 4 t) (iblk1 V c 5 t)
        (sc1 V c t.val).posHard (sc1 V c t.val).posAll (sc1 V c t.val).anyPos (sc1 V c t.val).negHard (sc1 V c t.val).negAll (sc1 V c t.val).anyNeg
    | ⟨7, _⟩ => validOut (F := F) (iblk1 V c 4 t) (iblk1 V c 5 t)
  Φ t := Phi1 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem after1_6 (t : Fin cfg1.N) : (dat1 V c).after 6 t = lossOut (grid1.coords t) (iblk1 V c 0 t) (iblk1 V c 1 t) (iblk1 V c 2 t) (iblk1 V c 3 t) (iblk1 V c 4 t) (iblk1 V c 5 t)
    (sc1 V c t.val).posHard (sc1 V c t.val).posAll (sc1 V c t.val).anyPos (sc1 V c t.val).negHard (sc1 V c t.val).negAll (sc1 V c t.val).anyNeg := rfl
theorem after1_7 (t : Fin cfg1.N) : (dat1 V c).after 7 t = validOut (F := F) (iblk1 V c 4 t) (iblk1 V c 5 t) := rfl

-- For the six input windows, what the body finds at a point is what it leaves there.
theorem before1 : ∀ w : Fin cfg1.W, w.val < 6 → ∀ (t : Fin cfg1.N) (d), (dat1 V c).before w t d = (dat1 V c).after w t := by
  rintro ⟨_ | _ | _ | _ | _ | _ | _, _⟩ h t d <;>
  first
    | exact absurd h (Nat.not_lt.mpr (Nat.le_add_left 6 _))
    | exact ((dat1 V c).before_in_eq_fetched _ rfl (fun _ => rfl) (fun _ _ _ => rfl) (fun _ => rfl) t d).trans rfl

theorem first1_iff : ∀ t : Fin cfg1.N, first1 (grid1.coords t) ↔ t.val % 32 = 0 :=
  (by decide +kernel : ∀ t : Fin grid1.N, first1 (grid1.coords t) ↔ t.val % 32 = 0)
theorem last1_iff : ∀ t : Fin cfg1.N, k1_cond2 (grid1.coords t) = 1#1 ↔ t.val % 32 = 31 :=
  (by decide +kernel : ∀ t : Fin grid1.N, k1_cond2 (grid1.coords t) = 1#1 ↔ t.val % 32 = 31)
theorem idle1_6 : ∀ t : Fin cfg1.N, cfg1.idle 6 (cfg1.grid.coords t) = !decide (t.val % 32 = 31) :=
  (by decide +kernel : ∀ t : Fin grid1.N, idle1 6 (grid1.coords t) = !decide (t.val % 32 = 31))
theorem idle1_7 : ∀ t : Fin cfg1.N, cfg1.idle 7 (cfg1.grid.coords t) = !decide (t.val % 32 = 31) :=
  (by decide +kernel : ∀ t : Fin grid1.N, idle1 7 (grid1.coords t) = !decide (t.val % 32 = 31))

theorem sound_body1 (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d))
        ∗ (∃ d, owns (c : Thread nD τ) (st1_7 t) fullShare ((dat1 V c).before 7 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t)
            ∗ (dat1 V c).leavesExact 6 t ∗ (dat1 V c).leavesExact 7 t)) := by
  have hΦ : ∀ u, (dat1 V c).Φ u = Phi1 V c u.val := fun _ => rfl
  rw [hΦ, hΦ, show (dat1 V c).owesAt () t.succ = (dat1 V c).owesAt () t.castSucc from rfl]
  simp only [before1 V c 0 (by decide), before1 V c 1 (by decide), before1 V c 2 (by decide), before1 V c 3 (by decide),
    before1 V c 4 (by decide), before1 V c 5 (by decide), Phi1, Fin.coe_castSucc, Fin.val_succ]
  iintro ⟨⟨%s10, %s11, %s12, %s13, %s14, %s15, %hs, S0, S1, S2, S3, S4, S5, Hp, Hw⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ _ _ _ _ _ _ _ _ _ _ _ _
    ((dat1 V c).after 0 t) ((dat1 V c).after 1 t) ((dat1 V c).after 2 t) ((dat1 V c).after 3 t) ((dat1 V c).after 4 t) ((dat1 V c).after 5 t)
    ((dat1 V c).before 6 t d6) ((dat1 V c).before 7 t d7) s10 s11 s12 s13 s14 s15 _)
  simp only [owns_whole]
  isplitl [H0]; swap; isplitl [H1]; swap; isplitl [H2]; swap; isplitl [H3]; swap; isplitl [H4]; swap; isplitl [H5]; swap; isplitl [H6]; swap; isplitl [H7]; swap
  isplitl [S0]; swap; isplitl [S1]; swap; isplitl [S2]; swap; isplitl [S3]; swap; isplitl [S4]; swap; isplitl [S5]; swap
  · iintro ⟨H0, H1, H2, H3, H4, H5, H6, H7, S0, S1, S2, S3, S4, S5⟩
    isplitl [S0 S1 S2 S3 S4 S5 Hp Hw]
    · iexists _, _, _, _, _, _
      isplitr; swap
      · isplitl [S0]; swap; isplitl [S1]; swap; isplitl [S2]; swap; isplitl [S3]; swap; isplitl [S4]; swap; isplitl [S5]; swap; isplitl [Hp]; swap
        all_goals iassumption
      ipureintro; intro _; rw [sc1_succ]; dsimp only
      by_cases h0 : t.val % 32 = 0
      · have hf := (first1_iff t).mpr h0
        unfold newPosHard newPosAll newAnyPos newNegHard newNegAll newAnyNeg
        refine ⟨?_, ?_, ?_, ?_, ?_, ?_⟩ <;> simp only [if_pos hf] <;> rfl
      · obtain ⟨rfl, rfl, rfl, rfl, rfl, rfl⟩ := hs h0
        exact ⟨rfl, rfl, rfl, rfl, rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    by_cases h31 : t.val % 32 = 31
    · have hk := (last1_iff t).mpr h31
      obtain ⟨rfl, rfl, rfl, rfl, rfl, rfl⟩ := hs (by omega)
      unfold Dat.leavesExact
      rw [idle1_6, decide_eq_true h31, Bool.not_true, if_pos hk, if_pos hk]
      dsimp only
      isplitl [H6]; · iexact H6
      iexact H7
    · have hk := fun h => h31 ((last1_iff t).mp h)
      rw [if_neg hk, if_neg hk, Dat.leavesExact_idle _ 6 t (by rw [idle1_6, decide_eq_false h31]; rfl) (Bool.eq_false_iff.mpr fun h => h31 ((flush1_6 t).mp h)),
        Dat.leavesExact_idle _ 7 t (by rw [idle1_7, decide_eq_false h31]; rfl) (Bool.eq_false_iff.mpr fun h => h31 ((flush1_7 t).mp h))]
      isplitl [H6]; · iexists _; iexact H6
      iexists _; iexact H7
  all_goals first | iexact H0 | iexact H1 | iexact H2 | iexact H3 | iexact H4 | iexact H5 | iexact H6 | iexact H7 | iassumption

theorem body_obligation1 : BodyObligation (dat1 (F := F) V c) (defs₀ (F := F)) Variants.none () Set.univ := fun t => by
  rw [bigSep_W1, bigSep_W1]
  exact sound_body1 V c t

theorem phi1_in :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  dsimp only [dat1, Phi1, some1]
  rw [scopedRest1_eq]
  iintro ⟨Hp, G0, G1, G2, G3, G4, G5, G6, G7, G8, G9, G10, G11, G12, G13, ⟨%s10, S0⟩, ⟨%s11, S1⟩, ⟨%s12, S2⟩, ⟨%s13, S3⟩, ⟨%s14, S4⟩, ⟨%s15, S5⟩⟩
  iexists s10, s11, s12, s13, s14, s15
  isplitr
  · ipureintro; intro h; exact absurd rfl h
  iframe
  iintro ⟨T0, T1, T2, T3, T4, T5⟩
  iframe

theorem phi1_out :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  dsimp only [dat1, Phi1, some1]
  iintro ⟨%s10, %s11, %s12, %s13, %s14, %s15, -, S0, S1, S2, S3, S4, S5, Hp, Hw⟩
  isplitl [Hp]; · iexact Hp
  iapply Hw
  isplitl [S0]; swap; isplitl [S1]; swap; isplitl [S2]; swap; isplitl [S3]; swap; isplitl [S4]; swap
  all_goals iexists _; iassumption

end Cert.Kernel.Hand

end
-- ==== Proof.KRun.lean ====
import proofs.«144984_j9225589752058_1_alg».proof.Proof.KDat0
import proofs.«144984_j9225589752058_1_alg».proof.Proof.KDat1
import proofs.«144984_j9225589752058_1_alg».proof.Proof.Gen.Kernel.Regions
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev VE0 : (c : Dev nD) → (b : Ref sig .tc) → Buf (Elt F) ((c : Thread nD τ).loc b) :=
  fun c b => StableHlo.after Gen.hostOps0 (fun b => m (c, b)) b

def XE0 (c : Dev nD) : Valuation τ sig (Elt F) :=
  Function.update (Function.update (Gen.V1 m c) main_v2_0 ((dat0 (VE0 m) c).arrAt 4 cfg0.N : Buf (Elt F) ((c : Thread nD τ).loc main_v2_0)))
    main_v2_1 ((dat0 (VE0 m) c).arrAt 5 cfg0.N : Buf (Elt F) ((c : Thread nD τ).loc main_v2_1))

def VE1 : (c : Dev nD) → (b : Ref sig .tc) → Buf (Elt F) ((c : Thread nD τ).loc b) :=
  fun c b => XE0 m c b

def XE1 (c : Dev nD) : Valuation τ sig (Elt F) :=
  Function.update (Function.update (XE0 m c) main_v3_0 ((dat1 (VE1 m) c).arrAt 6 cfg1.N : Buf (Elt F) ((c : Thread nD τ).loc main_v3_0)))
    main_v3_1 ((dat1 (VE1 m) c).arrAt 7 cfg1.N : Buf (Elt F) ((c : Thread nD τ).loc main_v3_1))

def Wfin (c : Dev nD) : Valuation τ sig (Elt F) := StableHlo.after Gen.hostOps2 (XE1 m c)

theorem upd2_of (X : Valuation τ sig (Elt F)) {a b : Ref sig .tc} (x : (Proc.devRef .tc a : DevRef τ sig).ty.Contents (Elt F))
    (y : (Proc.devRef .tc b : DevRef τ sig).ty.Contents (Elt F)) (r : Ref sig .tc) (h : r ∉ [a, b]) :
    Function.update (Function.update X (Proc.devRef .tc a) x) (Proc.devRef .tc b) y (Proc.devRef .tc r) = X (Proc.devRef .tc r) := by
  rw [Function.update_of_ne (StableHlo.devRef_ne_of_ne (List.ne_of_not_mem_cons (List.not_mem_of_not_mem_cons h))),
    Function.update_of_ne (StableHlo.devRef_ne_of_ne (List.ne_of_not_mem_cons h))]
theorem upd2_fst (X : Valuation τ sig (Elt F)) {a b : Ref sig .tc} (x : (Proc.devRef .tc a : DevRef τ sig).ty.Contents (Elt F))
    (y : (Proc.devRef .tc b : DevRef τ sig).ty.Contents (Elt F)) (h : a ≠ b) :
    Function.update (Function.update X (Proc.devRef .tc a) x) (Proc.devRef .tc b) y (Proc.devRef .tc a) = x := by
  rw [Function.update_of_ne (StableHlo.devRef_ne_of_ne h), Function.update_self]

theorem XE0_of (c : Dev nD) (r : Ref sig .tc) (h : r ∉ ([main_v2_0, main_v2_1] : List (Ref sig .tc))) : XE0 m c r = Gen.V1 m c r :=
  upd2_of _ _ _ r h
theorem XE1_of (c : Dev nD) (r : Ref sig .tc) (h : r ∉ ([main_v3_0, main_v3_1] : List (Ref sig .tc))) : XE1 m c r = XE0 m c r :=
  upd2_of _ _ _ r h
theorem XE1_v3_0 (c : Dev nD) : XE1 m c main_v3_0 = (dat1 (VE1 m) c).arrAt 6 cfg1.N := upd2_fst _ _ _ (by decide)
theorem XE1_v3_1 (c : Dev nD) : XE1 m c main_v3_1 = (dat1 (VE1 m) c).arrAt 7 cfg1.N := Function.update_self ..

theorem VE0_arg0 (c : Dev nD) : VE0 m c main_arg0 = m ((c : Thread nD τ).loc main_arg0) :=
  (Gen.V1_of m c main_arg0 (by decide)).trans rfl
theorem VE0_v0 (c : Dev nD) : VE0 m c main_v0 = shapeCast S8192x1 (m ((c : Thread nD τ).loc main_arg1)) shapeCasts_S8192_S8192x1 := by
  show StableHlo.after Gen.hostOps0 (Gen.V0 m c) (Proc.devRef .tc main_v0) = _
  after_results
  rfl
theorem VE0_v1 (c : Dev nD) : VE0 m c main_v1 = shapeCast S1x8192 (m ((c : Thread nD τ).loc main_arg1)) shapeCasts_S8192_S1x8192 := by
  show StableHlo.after Gen.hostOps0 (Gen.V0 m c) (Proc.devRef .tc main_v1) = _
  after_results
  rfl

theorem VE1_arg0 (c : Dev nD) : VE1 m c main_arg0 = VE0 m c main_arg0 := XE0_of m c main_arg0 (by decide)
theorem VE1_v0 (c : Dev nD) : VE1 m c main_v0 = VE0 m c main_v0 := XE0_of m c main_v0 (by decide)
theorem VE1_v1 (c : Dev nD) : VE1 m c main_v1 = VE0 m c main_v1 := XE0_of m c main_v1 (by decide)
theorem VE1_v2_0 (c : Dev nD) : VE1 m c main_v2_0 = (dat0 (VE0 m) c).arrAt 4 cfg0.N :=
  show XE0 m c main_v2_0 = _ from upd2_fst _ _ _ (by decide)
theorem VE1_v2_1 (c : Dev nD) : VE1 m c main_v2_1 = (dat0 (VE0 m) c).arrAt 5 cfg0.N :=
  show XE0 m c main_v2_1 = _ from Function.update_self ..

theorem Wfin_arg0 (c : Dev nD) : Wfin m c (Proc.devRef .tc main_arg0) = m ((c : Thread nD τ).loc main_arg0) :=
  (StableHlo.after_of_writes_sub Gen.hostOps2 _ Gen.hostOps2_writes (by decide)).trans <| (XE1_of m c main_arg0 (by decide)).trans <|
    (XE0_of m c main_arg0 (by decide)).trans <| (Gen.V1_of m c main_arg0 (by decide)).trans rfl
theorem Wfin_arg1 (c : Dev nD) : Wfin m c (Proc.devRef .tc main_arg1) = m ((c : Thread nD τ).loc main_arg1) :=
  (StableHlo.after_of_writes_sub Gen.hostOps2 _ Gen.hostOps2_writes (by decide)).trans <| (XE1_of m c main_arg1 (by decide)).trans <|
    (XE0_of m c main_arg1 (by decide)).trans <| (Gen.V1_of m c main_arg1 (by decide)).trans rfl

theorem Wfin_v7 (c : Dev nD) : Wfin m c (Proc.devRef .tc main_v7)
    = Host.divf (Host.reduceAdd ((dat1 (VE1 m) c).arrAt 6 cfg1.N) (constant S_ .f32 0x00000000#32) reducesTo_S8192x1_S_d0_1 h_S_)
        (maximumf (Host.reduceAdd ((dat1 (VE1 m) c).arrAt 7 cfg1.N) (constant S_ .f32 0x00000000#32) reducesTo_S8192x1_S_d0_1 h_S_)
          (constant S_ .f32 0x3F800000#32)) := by
  unfold Wfin
  after_results
  rw [XE1_v3_0, XE1_v3_1]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Arrays

variable (V : (c : Dev nD) → (b : Ref sig .tc) → Buf (Elt F) ((c : Thread nD τ).loc b)) (c : Dev nD)
  (W : (b : Ref sig .tc) → Buf (Elt F) ((c : Thread nD τ).loc b))

theorem arrBufs0_eq : (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

theorem arrBufs1_eq : (Pipeline.arrBufs spec1 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1) ∗ (((c : Thread nD τ).loc main_v3_0) ↦{fullShare} W main_v3_0)
          ∗ (((c : Thread nD τ).loc main_v3_1) ↦{fullShare} W main_v3_1)) := by
  unfold Pipeline.arrBufs
  exact bigSep_eq_bigSepL_of_eq [main_arg0, main_v0, main_v1, main_v2_0, main_v2_1, main_v3_0, main_v3_1] (by decide) (by decide) _

theorem arrays_univ {Λ₀ : Labels} {cfg : Pipeline.Cfg sig Λ₀} (d : Dat τ (Elt F) Unit ℕ (UR sig nD τ) ℕ cfg c) (hw : ∀ w, (cfg.win w).arr.IsWhole)
    (G : (w : Fin cfg.W) → Buf (Elt F) ((cfg.win w).arr.view.loc (c : Thread nD τ))) :
    (d.arrays G : sProp 𝕄) = bigSep Finset.univ fun w => (((cfg.win w).arr.view.loc (c : Thread nD τ)) ↦{d.share w} G w : sProp 𝕄) := by
  unfold Dat.arrays
  exact bigSep_congr fun w _ => by rw [(hw w).set_eq_univ]

theorem arrays0_eq (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  rw [arrays_univ c _ arr_whole0, bigSep_W0]
  rfl

theorem arrays1_eq (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)
          ∗ (((c : Thread nD τ).loc main_v3_0) ↦{fullShare} G 6) ∗ (((c : Thread nD τ).loc main_v3_1) ↦{fullShare} G 7)) := by
  rw [arrays_univ c _ arr_whole1, bigSep_W1]
  rfl

theorem hsplit : ((Pipeline.arrBufs spec0 c (V c) : sProp 𝕄) ⊢ (dat0 V c).arrays ((dat0 V c).arrAt · 0))
    ∧ ((Pipeline.arrBufs spec1 c (V c) : sProp 𝕄) ⊢ (dat1 V c).arrays ((dat1 V c).arrAt · 0)) := by
  constructor <;>
  · first | rw [arrBufs0_eq, arrays0_eq] | rw [arrBufs1_eq, arrays1_eq]
    iintro ⟨H0, H⟩
    ihave H0' := (pointsTo_share (PosShare.mem_left_op_right fullShare)).1 $$ H0
    icases H0' with ⟨Hl, Hr⟩
    isplitl [Hl]; · iexact Hl
    isplitl [Hr]; · iexact Hr
    iexact H

theorem hjoin0 (h : ∀ r, r ∉ ([main_v2_0, main_v2_1] : List (Ref sig .tc)) → W r = V c r)
    (h4 : W main_v2_0 = (dat0 V c).arrAt 4 cfg0.N) (h5 : W main_v2_1 = (dat0 V c).arrAt 5 cfg0.N) :
    ((dat0 V c).arrays ((dat0 V c).arrAt · cfg0.N) : sProp 𝕄) ⊢ Pipeline.arrBufs spec0 c W := by
  rw [arrBufs0_eq, arrays0_eq, h main_arg0 (by decide), h main_v0 (by decide), h main_v1 (by decide), h4, h5,
    (dat0 V c).arrAt_in 0 rfl, (dat0 V c).arrAt_in 1 rfl, (dat0 V c).arrAt_in 2 rfl, (dat0 V c).arrAt_in 3 rfl]
  iintro ⟨Hl, Hr, H⟩
  isplitl [Hl Hr]
  · iapply (pointsTo_share (PosShare.mem_left_op_right fullShare)).2
    isplitl [Hl]; · iexact Hl
    iexact Hr
  iexact H

theorem hjoin1 (h : ∀ r, r ∉ ([main_v3_0, main_v3_1] : List (Ref sig .tc)) → W r = V c r)
    (h6 : W main_v3_0 = (dat1 V c).arrAt 6 cfg1.N) (h7 : W main_v3_1 = (dat1 V c).arrAt 7 cfg1.N) :
    ((dat1 V c).arrays ((dat1 V c).arrAt · cfg1.N) : sProp 𝕄) ⊢ Pipeline.arrBufs spec1 c W := by
  rw [arrBufs1_eq, arrays1_eq, h main_arg0 (by decide), h main_v0 (by decide), h main_v1 (by decide), h main_v2_0 (by decide),
    h main_v2_1 (by decide), h6, h7,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨Hl, Hr, H⟩
  isplitl [Hl Hr]
  · iapply (pointsTo_share (PosShare.mem_left_op_right fullShare)).2
    isplitl [Hl]; · iexact Hl
    iexact Hr
  iexact H

end Arrays

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ub_split0 (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs 0 winFacts₀0.arr_unscoped c W
theorem ub_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

theorem rest_congr {gr W : ℕ} (spec : Fin W → Pipeline.WinSpec sig gr) (c : Dev nD) (A B : (b : Ref sig .tc) → Buf (Elt F) ((c : Thread nD τ).loc b))
    (l : List (Ref sig .tc)) (hl : ∀ b ∈ l, b ∈ Finset.univ.image (Pipeline.arrRef spec)) (h : ∀ b, b ∉ l → A b = B b) :
    (Pipeline.unscopedRest spec c A : sProp 𝕄) = Pipeline.unscopedRest spec c B := by
  unfold Pipeline.unscopedRest
  exact bigSep_congr fun b hb => by rw [h b fun hm => (Finset.mem_sdiff.mp hb).2 (hl b hm)]

set_option backward.isDefEq.respectTransparency.types false in
def regs : RegionSeg (pcfgs (F := F)) adm (pdats m) () defs₀ 𝒱₀ L lv 0 × RegionSeg (pcfgs (F := F)) adm (pdats m) () defs₀ 𝒱₀ L lv 1 := by
  refine ⟨{ win := winFacts₀0, block_pos := block_pos0, stage_whole := stage_whole0, K := PEmpty, osem := fun k => k.elim
            ho := Pipeline.OwnSemFacts.none _, hbody := fun c => (body_obligation0 (VE0 m) c).loose
            hwaits := Pipeline.hwaits_of_owed_zero _ _ _ _ L lv 0 fun _ _ => rfl
            pre := fun c => iprop(StableHlo.held (c : Thread nD τ) (Pipeline.ucRefs τ sig) (Gen.V1 m c) ∗ R c)
            post := fun c => iprop(StableHlo.held (c : Thread nD τ) (Pipeline.ucRefs τ sig) (XE0 m c) ∗ R c)
            X := fun c => iprop(∃ r, prngReg c r), Y := fun c => iprop(∃ r, prngReg c r)
            Z := fun c => Pipeline.unscopedRest spec0 c (VE0 m c)
            hentry := fun c => (have hu := ub_split0 (F := F) c; have hs := (hsplit (VE0 m) c).1; ?e0)
            hin := fun c => (have hi := phi0_in (VE0 m) c; ?i0)
            hout := fun c => (have ho := phi0_out (VE0 m) c; ?o0)
            hexit := fun c => (have hu := ub_split0 (F := F) c; have hr := rest_congr spec0 c (fun b => XE0 m c b) (VE0 m c) _ (by decide) (XE0_of m c)
              have hj := hjoin0 (VE0 m) c (fun b => XE0 m c b) (XE0_of m c) (VE1_v2_0 m c) (VE1_v2_1 m c); ?x0) },
          { win := winFacts₀1, block_pos := block_pos1, stage_whole := stage_whole1, K := PEmpty, osem := fun k => k.elim
            ho := Pipeline.OwnSemFacts.none _, hbody := fun c => (body_obligation1 (VE1 m) c).loose
            hwaits := Pipeline.hwaits_of_owed_zero _ _ _ _ L lv 1 fun _ _ => rfl
            pre := fun c => iprop(StableHlo.held (c : Thread nD τ) (Pipeline.ucRefs τ sig) (XE0 m c) ∗ R c)
            post := fun c => iprop(StableHlo.held (c : Thread nD τ) (Pipeline.ucRefs τ sig) (XE1 m c) ∗ R c)
            X := fun c => iprop(∃ r, prngReg c r), Y := fun c => iprop(∃ r, prngReg c r)
            Z := fun c => Pipeline.unscopedRest spec1 c (VE1 m c)
            hentry := fun c => (have hu := ub_split1 (F := F) c; have hs := (hsplit (VE1 m) c).2; ?e1)
            hin := fun c => (have hi := phi1_in (VE1 m) c; ?i1)
            hout := fun c => (have ho := phi1_out (VE1 m) c; ?o1)
            hexit := fun c => (have hu := ub_split1 (F := F) c; have hr := rest_congr spec1 c (fun b => XE1 m c b) (VE1 m c) _ (by decide) (XE1_of m c)
              have hj := hjoin1 (VE1 m) c (fun b => XE1 m c b) (XE1_of m c) (XE1_v3_0 m c) (XE1_v3_1 m c); ?x1) }⟩
  case e0 | e1 =>
    rw [Pipeline.ownSems0_none, ← Pipeline.unscopedBufs_held (Ix := Unit) (Name := ℕ) (U := UR sig nD τ) (Lvl := ℕ), hu]
    iintro ⟨⟨⟨Hab, Hrest⟩, Hp, HO⟩, -, -⟩
    imodintro
    isplitl [Hab]; · iapply hs; iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  case i0 | i1 =>
    refine .trans ?_ hi
    iintro ⟨HX, -, Hr⟩; isplitl [HX] <;> iassumption
  case o0 | o1 =>
    refine ho.trans ?_
    rw [Pipeline.ownSems0_none]
    iintro ⟨HY, Hr⟩
    isplitl [HY]; · iexact HY
    isplitr; · iempintro
    iexact Hr
  case x0 | x1 =>
    rw [← Pipeline.unscopedBufs_held (Ix := Unit) (Name := ℕ) (U := UR sig nD τ) (Lvl := ℕ), hu, hr]
    iintro ⟨Ha, HO, HY, Hrest⟩
    imodintro
    isplitl [Ha Hrest]
    · isplitl [Ha]; swap; · iexact Hrest
      iapply hj; iexact Ha
    isplitl [HY]; · iexact HY
    unfold Pipeline.Dat.owesAt Pipeline.owesWithin
    icases HO with ⟨%W, -, HO⟩; iexists W; iexact HO

abbrev segs : List (Seg (pcfgs (F := F)) adm (pdats m) () defs₀ 𝒱₀ L lv) :=
  [ .host (hseg hostOps0 hostOps0_sub Gen.hostOps0_fresh (Gen.V0 m)),
    .region (regs m).1,
    .region (regs m).2,
    .host (hseg hostOps2 hostOps2_sub Gen.hostOps2_fresh (XE1 m)) ]
theorem main_run (c : Dev nD) : main (F := F) c = Seg.run (segs m) := (main_chain c).trans (by chain_rfl)
set_option backward.isDefEq.respectTransparency.types false in
theorem run_main (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Wfin m c b) :=
  Pipeline.θ_run_regions_kit (pcfgs (F := F)) adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl)
        iexact Hu
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Wfin m c) ∗ ∃ r, prngReg c r))
    (hch := ⟨fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m c b)
    (hfin := fun c s' => by
      iintro ⟨⟨Hh, -⟩, HSI⟩
      unfold StableHlo.held
      imodintro
      iapply (pointsTo_read_all (Pipeline.ucRefs τ sig) (fun b => (((c : Thread nD τ)).1, b)) (Wfin m c) s')
      isplitl [Hh] <;> iassumption)
    (hQ := fun s h => h)
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_main m ρ).mono fun r h c =>
    ⟨(h c _ (mem_uc main_arg0 (by decide))).trans (Wfin_arg0 m c), (h c _ (mem_uc main_arg1 (by decide))).trans (Wfin_arg1 m c)⟩
end Cert.Kernel.Hand
end
-- ==== Proof.Body0.lean ====
import proofs.«144984_j9225589752058_1_alg».proof.Proof.Gen.KernelIdeal.Launch
import proofs.«144984_j9225589752058_1_alg».proof.Proof.Gen.KernelIdeal.Skeleton
import proofs.«144984_j9225589752058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def first0 (i : grid0.Coords) : Prop :=
  Scalar.cmpi .ne (Scalar.extui (Scalar.cmpi .eq (BitVec.ofNat 32 (i 1).val) 0#32)) 0#32 = 1#1

instance (i : grid0.Coords) : Decidable (first0 i) := by unfold first0; infer_instance

def newMin0 (i : grid0.Coords) (x0 : Vec F S1024x128 .f32) (x1 : Vec F S256x128 .f32) (x2 : Vec F S1024x1 .i32)
    (x3 : Vec F S1x256 .i32) (s8 : Vec F S1024x1 .f32) : Vec F S1024x1 .f32 :=
  k0_pay1 (k0_pay7 i x0 x1 x2 x3) (if first0 i then k0_pay3 (F := F) else s8)

def newMax0 (i : grid0.Coords) (x0 : Vec F S1024x128 .f32) (x1 : Vec F S256x128 .f32) (x2 : Vec F S1024x1 .i32)
    (x3 : Vec F S1x256 .i32) (s9 : Vec F S1024x1 .f32) : Vec F S1024x1 .f32 :=
  k0_pay2 (k0_pay8 x0 x1 x2 x3) (if first0 i then k0_pay4 (F := F) else s9)

theorem off2_zero : (![0, 0] : Fin 2 → ℕ) = fun _ => 0 := by
  funext a; fin_cases a <;> rfl

section whole

variable {κ : Kind} {sp : Space} {e : EltTy} {d : Fin 2 → ℕ}

theorem readAt_whole (v : View sig κ sp ⟨2, d⟩ e) (f : v.ty.Contents (Elt F))
    (inb : ∀ a, (![0, 0] : Fin 2 → ℕ) a + d a ≤ d a) :
    View.readAt (Elt F) v (Rect.unit (s := ⟨2, d⟩) ![0, 0] d inb).toLoadRect f = View.read (Elt F) v f := by
  rw [View.readAt_eq_ld]; exact View.ld_unit_zero (S := ⟨2, d⟩) off2_zero inb _

theorem cover_whole (inb : ∀ a, (![0, 0] : Fin 2 → ℕ) a + d a ≤ d a) (w : Shape.Idx ⟨2, d⟩ → Elt F e)
    (L : List (View.Piece (Elt F) ⟨2, d⟩ e)) (y : Shape.Idx ⟨2, d⟩) :
    ∃ p ∈ (⟨Rect.unit (s := ⟨2, d⟩) ![0, 0] d inb, w⟩ : View.Piece (Elt F) ⟨2, d⟩ e) :: L, y ∈ p.1.set :=
  ⟨⟨Rect.unit (s := ⟨2, d⟩) ![0, 0] d inb, w⟩, List.mem_cons_self, View.mem_set_unit_zero (S := ⟨2, d⟩) off2_zero inb y⟩

theorem read_store_whole (v : View sig κ sp ⟨2, d⟩ e) (f : v.ty.Contents (Elt F))
    (inb : ∀ a, (![0, 0] : Fin 2 → ℕ) a + d a ≤ d a) (w : Shape.Idx ⟨2, d⟩ → Elt F e)
    (L : List (View.Piece (Elt F) ⟨2, d⟩ e)) :
    View.read (Elt F) v (v.writes (Elt F) f (⟨Rect.unit (s := ⟨2, d⟩) ![0, 0] d inb, w⟩ :: L)) = w := by
  rw [View.read_writes_eq_canon _ _ _ (cover_whole inb w L)]
  exact View.canon_cons_unit_zero (S := ⟨2, d⟩) off2_zero inb w L

theorem readCov_store_whole (v : View sig κ sp ⟨2, d⟩ e)
    (inb : ∀ a, (![0, 0] : Fin 2 → ℕ) a + d a ≤ d a) (w : Shape.Idx ⟨2, d⟩ → Elt F e)
    (L : List (View.Piece (Elt F) ⟨2, d⟩ e)) :
    v.readCov (⟨Rect.unit (s := ⟨2, d⟩) ![0, 0] d inb, w⟩ :: L) (Rect.unit (s := ⟨2, d⟩) ![0, 0] d inb).toLoadRect = w := by
  rw [View.readCov_eq_canon_ld _ _ _ (cover_whole inb w L), View.canon_cons_unit_zero (S := ⟨2, d⟩) off2_zero inb w L]
  exact View.ld_unit_zero (S := ⟨2, d⟩) off2_zero inb _

end whole

set_option maxHeartbeats 1000000 in
theorem sound_kernel0 (c : Dev nD) (E : Set ℕ) (i : grid0.Coords)
    (arg2 : Memref sig .tc .vmem S1024x128 .f32) (harg2 : arg2.IsWhole) (arg3 : Memref sig .tc .vmem S256x128 .f32) (harg3 : arg3.IsWhole)
    (arg4 : Memref sig .tc .vmem S1024x1 .i32) (harg4 : arg4.IsWhole) (arg5 : Memref sig .tc .vmem S1x256 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (x0 : Vec F S1024x128 .f32) (x1 : Vec F S256x128 .f32) (x2 : Vec F S1024x1 .i32) (x3 : Vec F S1x256 .i32)
    (d6 d7 s8 s9 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare d6 ∗ owns (c : Thread nD τ) arg7 fullShare d7
        ∗ owns (c : Thread nD τ) arg8 fullShare s8 ∗ owns (c : Thread nD τ) arg9 fullShare s9
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (if k0_cond2 i = 1#1 then newMin0 i x0 x1 x2 x3 s8 else d6)
            ∗ owns (c : Thread nD τ) arg7 fullShare (if k0_cond2 i = 1#1 then newMax0 i x0 x1 x2 x3 s9 else d7)
            ∗ owns (c : Thread nD τ) arg8 fullShare (newMin0 i x0 x1 x2 x3 s8)
            ∗ owns (c : Thread nD τ) arg9 fullShare (newMax0 i x0 x1 x2 x3 s9)) -∗ K ⟨⟩))
      ⊢ wp frame (wpE (defs₀ (F := F)) Variants.none c none) E
          (cc0__pass1_kernel i arg2 harg2 arg3 harg3 arg4 harg4 arg5 harg5 arg6 harg6 arg7 harg7 arg8 harg8 arg9 harg9) K := by
  by_cases h1 : first0 i <;> by_cases h2 : k0_cond2 i = 1#1 <;>
  · first | simp only [newMin0, newMax0, if_neg h1] | simp only [newMin0, newMax0, if_pos h1]
    first | simp only [if_neg h2] | simp only [if_pos h2]
    simp only [cc0__pass1_kernel_eq_skeleton]; unfold cc0__pass1_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf2 hf3 hf4 hf5 hf6 hf7 hf8 hf9
    unfold first0 at h1
    sl_exec (disch := first | exact h1 | exact h2)
    sl_step
    iapply Hk
    isplitl [H2]; swap; isplitl [H3]; swap; isplitl [H4]; swap; isplitl [H5]; swap
    isplitl [H6]; swap; isplitl [H7]; swap; isplitl [H8]; swap
    all_goals
      iexists _; isplitr; swap; iassumption; ipureintro
      first | rfl | (sl_unfold_run_names; simp only [read_store_whole, readCov_store_whole, readAt_whole])

end Cert.KernelIdeal.Hand

end
-- ==== Proof.Dat0.lean ====
import proofs.«144984_j9225589752058_1_alg».proof.Proof.Gen.KernelIdeal.Launch
import proofs.«144984_j9225589752058_1_alg».proof.Proof.Gen.KernelIdeal.Points
import proofs.«144984_j9225589752058_1_alg».proof.Proof.Body0
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- Running row minima and maxima over the first n tiles; a row's first tile restarts them, so the seed is arbitrary.
def sc0 (c : Dev nD) : ℕ → Vec F S1024x1 .f32 × Vec F S1024x1 .f32
  | 0 => (k0_pay3 (F := F), k0_pay4 (F := F))
  | n + 1 =>
    if h : n < cfg0.N then
      (newMin0 (grid0.coords ⟨n, h⟩) (iblk0 V c 0 ⟨n, h⟩) (iblk0 V c 1 ⟨n, h⟩) (iblk0 V c 2 ⟨n, h⟩) (iblk0 V c 3 ⟨n, h⟩) (sc0 c n).1,
       newMax0 (grid0.coords ⟨n, h⟩) (iblk0 V c 0 ⟨n, h⟩) (iblk0 V c 1 ⟨n, h⟩) (iblk0 V c 2 ⟨n, h⟩) (iblk0 V c 3 ⟨n, h⟩) (sc0 c n).2)
    else sc0 c n

theorem sc0_succ (c : Dev nD) (t : Fin cfg0.N) :
    sc0 V c (t.val + 1) =
      (newMin0 (grid0.coords t) (iblk0 V c 0 t) (iblk0 V c 1 t) (iblk0 V c 2 t) (iblk0 V c 3 t) (sc0 V c t.val).1,
       newMax0 (grid0.coords t) (iblk0 V c 0 t) (iblk0 V c 1 t) (iblk0 V c 2 t) (iblk0 V c 3 t) (sc0 V c t.val).2) := by
  rw [sc0]; exact dif_pos t.isLt

-- Loop invariant: away from a row start the two columns equal sc0 n.
def dat0_inv (c : Dev nD) (n : ℕ) : sProp 𝕄 :=
  iprop(∃ s8 s9 : Vec F S1024x1 .f32, ⌜n % 32 ≠ 0 → s8 = (sc0 V c n).1 ∧ s9 = (sc0 V c n).2⌝
      ∗ (((c : Thread nD τ).loc cc0_scratch0) ↦{fullShare} s8) ∗ (((c : Thread nD τ).loc cc0_scratch1) ↦{fullShare} s9)
      ∗ (∃ r, prngReg c r)
      ∗ (iprop((∃ f, ((c : Thread nD τ).loc cc0_scratch0) ↦{fullShare} f) ∗ (∃ f, ((c : Thread nD τ).loc cc0_scratch1) ↦{fullShare} f))
          -∗ Pipeline.scopedRest (Ix := Unit) (Name := ℕ) (U := UR sig nD τ) (Lvl := ℕ) (Val := Elt F) spec0 c))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (sc0 V c (t.val + 1)).1
    | ⟨5, _⟩ => (sc0 V c (t.val + 1)).2
  Φ t := dat0_inv V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem dat0_Φ_eq (c : Dev nD) (t : Fin (cfg0.N + 1)) : (dat0 V c).Φ t = dat0_inv V c t.val := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (sc0 V c (t.val + 1)).1 := by dsimp only [dat0]
theorem after0_5 (c : Dev nD) (t : Fin cfg0.N) : (dat0 V c).after 5 t = (sc0 V c (t.val + 1)).2 := by dsimp only [dat0]

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t) := by
  refine ⟨?_, ?_, ?_, ?_⟩ <;> intro d <;>
    exact ((dat0 V c).before_in_eq_fetched _ rfl (fun _ => rfl) (fun _ _ _ => rfl)
      (fun t => by dsimp only [dat0, Dat.blockOf, iblk0]; try rfl) t d).trans (by dsimp only [Dat.fetched, Dat.blockOf, iblk0, dat0]; try rfl)

theorem first0_iff : ∀ t : Fin cfg0.N, first0 (grid0.coords t) ↔ t.val % 32 = 0 := by decide +kernel
theorem last0_iff : ∀ t : Fin cfg0.N, k0_cond2 (grid0.coords t) = 1#1 ↔ t.val % 32 = 31 := by decide +kernel
theorem idle0_45 : ∀ t : Fin cfg0.N, cfg0.idle 4 (cfg0.grid.coords t) = !decide (t.val % 32 = 31) ∧ cfg0.idle 5 (cfg0.grid.coords t) = !decide (t.val % 32 = 31) := by
  decide +kernel

-- A row's first tile ignores the old columns; elsewhere they already equal sc0 t.
theorem dat0_step (c : Dev nD) (t : Fin cfg0.N) (s8 s9 : Vec F S1024x1 .f32)
    (h : t.val % 32 ≠ 0 → s8 = (sc0 V c t.val).1 ∧ s9 = (sc0 V c t.val).2) :
    newMin0 (grid0.coords t) (iblk0 V c 0 t) (iblk0 V c 1 t) (iblk0 V c 2 t) (iblk0 V c 3 t) s8 = (sc0 V c (t.val + 1)).1
      ∧ newMax0 (grid0.coords t) (iblk0 V c 0 t) (iblk0 V c 1 t) (iblk0 V c 2 t) (iblk0 V c 3 t) s9 = (sc0 V c (t.val + 1)).2 := by
  rw [sc0_succ]
  by_cases h0 : t.val % 32 = 0
  · constructor <;> simp only [newMin0, newMax0, if_pos ((first0_iff t).2 h0)]
  · obtain ⟨rfl, rfl⟩ := h h0
    exact ⟨rfl, rfl⟩

theorem leaves0 (c : Dev nD) (t : Fin cfg0.N) {w : Fin cfg0.W} (hw : w = 4 ∨ w = 5) (d) :
    owns (c : Thread nD τ) ((cfg0.win w).stage (cfg0.slots t w)) fullShare
        (if k0_cond2 (grid0.coords t) = 1#1 then (dat0 V c).after w t else (dat0 V c).before w t d)
      ⊢ ((dat0 V c).leavesExact w t : sProp 𝕄) := by
  have hi : cfg0.idle w (cfg0.grid.coords t) = !decide (t.val % 32 = 31) := by
    rcases hw with rfl | rfl; exacts [(idle0_45 t).1, (idle0_45 t).2]
  have hf : (cfg0.win w).flush t = true ↔ t.val % 32 = 31 := by rcases hw with rfl | rfl; exacts [flush0_4 t, flush0_5 t]
  by_cases hl : t.val % 32 = 31
  · rw [if_pos ((last0_iff t).2 hl)]; unfold Dat.leavesExact; rw [hi, decide_eq_true hl]; exact .rfl
  · rw [if_neg fun h => hl ((last0_iff t).1 h),
      (dat0 V c).leavesExact_idle w t (by rw [hi, decide_eq_false hl]; rfl) (Bool.eq_false_iff.2 fun h => hl (hf.1 h))]
    iintro H; iexists _; iexact H

theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ (dat0 V c).leavesExact 4 t ∗ (dat0 V c).leavesExact 5 t)) := by
  obtain ⟨b0, b1, b2, b3⟩ := before0 V c t
  simp only [b0, b1, b2, b3]
  rw [dat0_Φ_eq, dat0_Φ_eq, Fin.coe_castSucc, Fin.val_succ, after0_0, after0_1, after0_2, after0_3,
    show (dat0 V c).owesAt () t.succ = (dat0 V c).owesAt () t.castSucc from rfl]
  unfold dat0_inv
  iintro ⟨⟨%s8, %s9, %hs, H8, H9, Hp, Hw⟩, HO, ⟨%d0, H0⟩, ⟨%d1, H1⟩, ⟨%d2, H2⟩, ⟨%d3, H3⟩, ⟨%d4, H4⟩, ⟨%d5, H5⟩⟩
  obtain ⟨e8, e9⟩ := dat0_step V c t s8 s9 hs
  have l4 := leaves0 V c t (.inl rfl) d4; rw [after0_4] at l4
  have l5 := leaves0 V c t (.inr rfl) d5; rw [after0_5] at l5
  iapply (sound_kernel0 c Set.univ (grid0.coords t) _ _ _ _ _ _ _ _ _ _ _ _ _ _ _ _
    (iblk0 V c 0 t) (iblk0 V c 1 t) (iblk0 V c 2 t) (iblk0 V c 3 t) ((dat0 V c).before 4 t d4) ((dat0 V c).before 5 t d5) s8 s9 _)
  simp only [e8, e9, owns_whole]
  iframe
  iintro ⟨H0, H1, H2, H3, H4, H5, H8, H9⟩
  iframe
  isplitr [H4 H5]
  · iexists _; iexists _; iframe; ipureintro; exact fun _ => ⟨rfl, rfl⟩
  isplitl [H4]
  · iapply l4; iexact H4
  · iapply l5; iexact H5

theorem body_obligation0 (c : Dev nD) : BodyObligation (dat0 (F := F) V c) (defs₀ (F := F)) Variants.none () Set.univ := fun t => by
  rw [bigSep_W0, bigSep_W0]
  exact sound_body0 V c t

theorem phi0_in (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  dsimp only [dat0, dat0_inv]
  rw [scopedRest0_eq]
  iintro ⟨Hp, ⟨%s8, H8⟩, ⟨%s9, H9⟩, Hrest⟩
  iexists s8; iexists s9
  iframe
  isplitr
  · ipureintro; intro h; exact absurd rfl h
  iintro ⟨H8, H9⟩
  iframe

theorem phi0_out (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  dsimp only [dat0, dat0_inv]
  iintro ⟨%s8, %s9, -, H8, H9, Hp, Hw⟩
  isplitl [Hp]; · iexact Hp
  iapply Hw
  isplitl [H8] <;> iexists _ <;> iassumption

end Cert.KernelIdeal.Hand

end
-- ==== Proof.Body1.lean ====
import proofs.«144984_j9225589752058_1_alg».proof.Proof.Body0

noncomputable section

namespace Cert.KernelIdeal.Hand

open Cert.KernelIdeal.Gen
open Idealize.ShloMosaic Idealize.ShloMosaic.TcCoe
open Idealize.SL.RA Idealize.SL.BI Idealize.SL.BI.BIBase Idealize.SL.Sem

variable {F : FTy → Type} [FloatOps F]

def first1 (i : grid1.Coords) : Prop :=
  Scalar.cmpi .ne (Scalar.extui (Scalar.cmpi .eq (BitVec.ofNat 32 (i 1).val) 0#32)) 0#32 = 1#1

instance (i : grid1.Coords) : Decidable (first1 i) := by unfold first1; infer_instance

section
variable (i : grid1.Coords) (x0 : Vec F S1024x128 .f32) (x1 : Vec F S256x128 .f32) (x2 : Vec F S1024x1 .i32) (x3 : Vec F S1x256 .i32) (x4 x5 : Vec F S1024x1 .f32)

def newPosHard (s10 : Vec F S1024x1 .f32) : Vec F S1024x1 .f32 :=
  k1_pay22 (k1_pay10 x0 x1) (k1_pay12 i x2 x3) (k1_pay15 x5) (if first1 i then k1_pay4 (F := F) else s10)
def newPosAll (s11 : Vec F S1024x1 .f32) : Vec F S1024x1 .f32 :=
  k1_pay23 (k1_pay10 x0 x1) (k1_pay12 i x2 x3) (if first1 i then k1_pay5 (F := F) else s11)
def newAnyPos (s12 : Vec F S1024x1 .f32) : Vec F S1024x1 .f32 :=
  k1_pay27 (k1_pay19 (k1_pay10 x0 x1) (k1_pay12 i x2 x3) (k1_pay15 x5)) (if first1 i then k1_pay6 (F := F) else s12)
def newNegHard (s13 : Vec F S1024x1 .f32) : Vec F S1024x1 .f32 :=
  k1_pay25 (if first1 i then k1_pay7 (F := F) else s13) (k1_pay24 (k1_pay10 x0 x1) (k1_pay13 x2 x3) (k1_pay16 x0 x1) (k1_pay17 x4))
def newNegAll (s14 : Vec F S1024x1 .f32) : Vec F S1024x1 .f32 :=
  k1_pay26 (k1_pay13 x2 x3) (k1_pay21 (k1_pay10 x0 x1)) (if first1 i then k1_pay8 (F := F) else s14)
def newAnyNeg (s15 : Vec F S1024x1 .f32) : Vec F S1024x1 .f32 :=
  k1_pay28 (k1_pay18 (k1_pay13 x2 x3) (k1_pay16 x0 x1) (k1_pay17 x4)) (if first1 i then k1_pay9 (F := F) else s15)
def lossOut (s10 s11 s12 s13 s14 s15 : Vec F S1024x1 .f32) : Vec F S1024x1 .f32 :=
  k1_pay2 (k1_pay14 x4) (k1_pay15 x5) (newAnyPos i x0 x1 x2 x3 x5 s12) (newPosHard i x0 x1 x2 x3 x5 s10) (newPosAll i x0 x1 x2 x3 s11)
    (newAnyNeg i x0 x1 x2 x3 x4 s15) (newNegHard i x0 x1 x2 x3 x4 s13) (newNegAll i x0 x1 x2 x3 s14)
def validOut : Vec F S1024x1 .f32 := k1_pay3 (k1_pay14 x4) (k1_pay15 x5)
end

-- Both conditions depend on the grid point alone; in each of the four cases every block ends at the payload of its last store, or as found.
set_option maxHeartbeats 1000000 in
theorem sound_kernel1 (c : Dev nD) (E : Set ℕ) (i : grid1.Coords)
    (arg2 : Memref sig .tc .vmem S1024x128 .f32) (harg2 : arg2.IsWhole) (arg3 : Memref sig .tc .vmem S256x128 .f32) (harg3 : arg3.IsWhole)
    (arg4 : Memref sig .tc .vmem S1024x1 .i32) (harg4 : arg4.IsWhole) (arg5 : Memref sig .tc .vmem S1x256 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (arg12 : Memref sig .tc .vmem S1024x1 .f32) (harg12 : arg12.IsWhole) (arg13 : Memref sig .tc .vmem S1024x1 .f32) (harg13 : arg13.IsWhole)
    (arg14 : Memref sig .tc .vmem S1024x1 .f32) (harg14 : arg14.IsWhole) (arg15 : Memref sig .tc .vmem S1024x1 .f32) (harg15 : arg15.IsWhole)
    (x0 : Vec F S1024x128 .f32) (x1 : Vec F S256x128 .f32) (x2 : Vec F S1024x1 .i32) (x3 : Vec F S1x256 .i32) (x4 x5 : Vec F S1024x1 .f32)
    (d8 d9 s10 s11 s12 s13 s14 s15 : Vec F S1024x1 .f32) (K : PUnit → sProp (MT nD τ sig Unit (Elt F) ℕ (UR sig nD τ) ℕ)) :
    iprop(owns c arg2 fullShare x0 ∗ owns c arg3 fullShare x1
        ∗ owns c arg4 fullShare x2 ∗ owns c arg5 fullShare x3
        ∗ owns c arg6 fullShare x4 ∗ owns c arg7 fullShare x5
        ∗ owns c arg8 fullShare d8 ∗ owns c arg9 fullShare d9
        ∗ owns c arg10 fullShare s10 ∗ owns c arg11 fullShare s11
        ∗ owns c arg12 fullShare s12 ∗ owns c arg13 fullShare s13
        ∗ owns c arg14 fullShare s14 ∗ owns c arg15 fullShare s15
        ∗ (iprop(owns c arg2 fullShare x0 ∗ owns c arg3 fullShare x1
            ∗ owns c arg4 fullShare x2 ∗ owns c arg5 fullShare x3
            ∗ owns c arg6 fullShare x4 ∗ owns c arg7 fullShare x5
            ∗ owns c arg8 fullShare (if k1_cond2 i = 1#1 then lossOut i x0 x1 x2 x3 x4 x5 s10 s11 s12 s13 s14 s15 else d8)
            ∗ owns c arg9 fullShare (if k1_cond2 i = 1#1 then validOut (F := F) x4 x5 else d9)
            ∗ owns c arg10 fullShare (newPosHard i x0 x1 x2 x3 x5 s10)
            ∗ owns c arg11 fullShare (newPosAll i x0 x1 x2 x3 s11)
            ∗ owns c arg12 fullShare (newAnyPos i x0 x1 x2 x3 x5 s12)
            ∗ owns c arg13 fullShare (newNegHard i x0 x1 x2 x3 x4 s13)
            ∗ owns c arg14 fullShare (newNegAll i x0 x1 x2 x3 s14)
            ∗ owns c arg15 fullShare (newAnyNeg i x0 x1 x2 x3 x4 s15)) -∗ K ⟨⟩))
      ⊢ wp frame (wpE (defs₀ (F := F)) Variants.none c none) E
          (cc1__pass2_kernel i arg2 harg2 arg3 harg3 arg4 harg4 arg5 harg5 arg6 harg6 arg7 harg7 arg8 harg8 arg9 harg9
            arg10 harg10 arg11 harg11 arg12 harg12 arg13 harg13 arg14 harg14 arg15 harg15) K := by
  by_cases h1 : first1 i <;> by_cases h2 : k1_cond2 i = 1#1 <;>
  · simp only [lossOut, validOut, newPosHard, newPosAll, newAnyPos, newNegHard, newNegAll, newAnyNeg, h1, h2, if_true, if_false]
    simp only [cc1__pass2_kernel_eq_skeleton]; unfold cc1__pass2_kernel_skel owns
    iintro ⟨⟨%_, %_, H2⟩, ⟨%_, %_, H3⟩, ⟨%_, %_, H4⟩, ⟨%_, %_, H5⟩, ⟨%_, %_, H6⟩, ⟨%_, %_, H7⟩, ⟨%_, %_, H8⟩, ⟨%_, %_, H9⟩, ⟨%_, %_, H10⟩, ⟨%_, %_, H11⟩, ⟨%_, %_, H12⟩, ⟨%_, %_, H13⟩, ⟨%_, %_, H14⟩, ⟨%_, %_, H15⟩, Hk⟩
    subst_vars
    unfold first1 at h1
    sl_exec (disch := assumption)
    sl_step
    iapply Hk
    isplitl [H2]; swap; isplitl [H3]; swap; isplitl [H4]; swap; isplitl [H5]; swap
    isplitl [H6]; swap; isplitl [H7]; swap; isplitl [H8]; swap; isplitl [H9]; swap
    isplitl [H10]; swap; isplitl [H11]; swap; isplitl [H12]; swap; isplitl [H13]; swap; isplitl [H14]; swap
    all_goals
      iexists _; isplitr; swap; iassumption; ipureintro
      first | rfl | (sl_unfold_run_names; simp only [read_store_whole, readCov_store_whole, readAt_whole])

end Cert.KernelIdeal.Hand

end
-- ==== Proof.Dat1.lean ====
import proofs.«144984_j9225589752058_1_alg».proof.Proof.Gen.KernelIdeal.Launch
import proofs.«144984_j9225589752058_1_alg».proof.Proof.Gen.KernelIdeal.Points
import proofs.«144984_j9225589752058_1_alg».proof.Proof.Body1
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

noncomputable def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

structure Cols (F : FTy → Type) [FloatOps F] where
  posHard : Vec F S1024x1 .f32
  posAll : Vec F S1024x1 .f32
  anyPos : Vec F S1024x1 .f32
  negHard : Vec F S1024x1 .f32
  negAll : Vec F S1024x1 .f32
  anyNeg : Vec F S1024x1 .f32

def sc1 : ℕ → Cols F
  | 0 => ⟨k1_pay4 (F := F), k1_pay5 (F := F), k1_pay6 (F := F), k1_pay7 (F := F), k1_pay8 (F := F), k1_pay9 (F := F)⟩
  | n + 1 =>
    if h : n < cfg1.N then
      ⟨newPosHard (grid1.coords ⟨n, h⟩) (iblk1 V c 0 ⟨n, h⟩) (iblk1 V c 1 ⟨n, h⟩) (iblk1 V c 2 ⟨n, h⟩) (iblk1 V c 3 ⟨n, h⟩) (iblk1 V c 5 ⟨n, h⟩) (sc1 n).posHard,
       newPosAll (grid1.coords ⟨n, h⟩) (iblk1 V c 0 ⟨n, h⟩) (iblk1 V c 1 ⟨n, h⟩) (iblk1 V c 2 ⟨n, h⟩) (iblk1 V c 3 ⟨n, h⟩) (sc1 n).posAll,
       newAnyPos (grid1.coords ⟨n, h⟩) (iblk1 V c 0 ⟨n, h⟩) (iblk1 V c 1 ⟨n, h⟩) (iblk1 V c 2 ⟨n, h⟩) (iblk1 V c 3 ⟨n, h⟩) (iblk1 V c 5 ⟨n, h⟩) (sc1 n).anyPos,
       newNegHard (grid1.coords ⟨n, h⟩) (iblk1 V c 0 ⟨n, h⟩) (iblk1 V c 1 ⟨n, h⟩) (iblk1 V c 2 ⟨n, h⟩) (iblk1 V c 3 ⟨n, h⟩) (iblk1 V c 4 ⟨n, h⟩) (sc1 n).negHard,
       newNegAll (grid1.coords ⟨n, h⟩) (iblk1 V c 0 ⟨n, h⟩) (iblk1 V c 1 ⟨n, h⟩) (iblk1 V c 2 ⟨n, h⟩) (iblk1 V c 3 ⟨n, h⟩) (sc1 n).negAll,
       newAnyNeg (grid1.coords ⟨n, h⟩) (iblk1 V c 0 ⟨n, h⟩) (iblk1 V c 1 ⟨n, h⟩) (iblk1 V c 2 ⟨n, h⟩) (iblk1 V c 3 ⟨n, h⟩) (iblk1 V c 4 ⟨n, h⟩) (sc1 n).anyNeg⟩
    else sc1 n

theorem sc1_succ (t : Fin cfg1.N) :
    sc1 V c (t.val + 1) =
      ⟨newPosHard (grid1.coords t) (iblk1 V c 0 t) (iblk1 V c 1 t) (iblk1 V c 2 t) (iblk1 V c 3 t) (iblk1 V c 5 t) (sc1 V c t.val).posHard,
       newPosAll (grid1.coords t) (iblk1 V c 0 t) (iblk1 V c 1 t) (iblk1 V c 2 t) (iblk1 V c 3 t) (sc1 V c t.val).posAll,
       newAnyPos (grid1.coords t) (iblk1 V c 0 t) (iblk1 V c 1 t) (iblk1 V c 2 t) (iblk1 V c 3 t) (iblk1 V c 5 t) (sc1 V c t.val).anyPos,
       newNegHard (grid1.coords t) (iblk1 V c 0 t) (iblk1 V c 1 t) (iblk1 V c 2 t) (iblk1 V c 3 t) (iblk1 V c 4 t) (sc1 V c t.val).negHard,
       newNegAll (grid1.coords t) (iblk1 V c 0 t) (iblk1 V c 1 t) (iblk1 V c 2 t) (iblk1 V c 3 t) (sc1 V c t.val).negAll,
       newAnyNeg (grid1.coords t) (iblk1 V c 0 t) (iblk1 V c 1 t) (iblk1 V c 2 t) (iblk1 V c 3 t) (iblk1 V c 4 t) (sc1 V c t.val).anyNeg⟩ := by
  rw [sc1]; exact dif_pos t.isLt

def some1 (b : Ref sig .tc) : sProp 𝕄 := iprop(∃ f : Buf (Elt F) ((c : Thread nD τ).loc b), ((c : Thread nD τ).loc b) ↦{fullShare} f)

-- The six columns at some contents, which away from a row's first tile are the recursion's values.
def Phi1 (n : ℕ) : sProp 𝕄 :=
  iprop(∃ s10 s11 s12 s13 s14 s15 : Vec F S1024x1 .f32,
      ⌜n % 32 ≠ 0 → s10 = (sc1 V c n).posHard ∧ s11 = (sc1 V c n).posAll ∧ s12 = (sc1 V c n).anyPos ∧ s13 = (sc1 V c n).negHard ∧ s14 = (sc1 V c n).negAll ∧ s15 = (sc1 V c n).anyNeg⌝
      ∗ (((c : Thread nD τ).loc cc1_scratch0) ↦{fullShare} s10) ∗ (((c : Thread nD τ).loc cc1_scratch1) ↦{fullShare} s11) ∗ (((c : Thread nD τ).loc cc1_scratch2) ↦{fullShare} s12) ∗ (((c : Thread nD τ).loc cc1_scratch3) ↦{fullShare} s13) ∗ (((c : Thread nD τ).loc cc1_scratch4) ↦{fullShare} s14) ∗ (((c : Thread nD τ).loc cc1_scratch5) ↦{fullShare} s15)
      ∗ (∃ r, prngReg c r)
      ∗ (iprop(some1 c cc1_scratch0 ∗ some1 c cc1_scratch1 ∗ some1 c cc1_scratch2 ∗ some1 c cc1_scratch3 ∗ some1 c cc1_scratch4 ∗ some1 c cc1_scratch5)
          -∗ Pipeline.scopedRest (Ix := Unit) (Name := ℕ) (U := UR sig nD τ) (Lvl := ℕ) (Val := Elt F) spec1 c))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => lossOut (grid1.coords t) (iblk1 V c 0 t) (iblk1 V c 1 t) (iblk1 V c 2 t) (iblk1 V c 3 t) (iblk1 V c 4 t) (iblk1 V c 5 t)
        (sc1 V c t.val).posHard (sc1 V c t.val).posAll (sc1 V c t.val).anyPos (sc1 V c t.val).negHard (sc1 V c t.val).negAll (sc1 V c t.val).anyNeg
    | ⟨7, _⟩ => validOut (F := F) (iblk1 V c 4 t) (iblk1 V c 5 t)
  Φ t := Phi1 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem after1_6 (t : Fin cfg1.N) : (dat1 V c).after 6 t = lossOut (grid1.coords t) (iblk1 V c 0 t) (iblk1 V c 1 t) (iblk1 V c 2 t) (iblk1 V c 3 t) (iblk1 V c 4 t) (iblk1 V c 5 t)
    (sc1 V c t.val).posHard (sc1 V c t.val).posAll (sc1 V c t.val).anyPos (sc1 V c t.val).negHard (sc1 V c t.val).negAll (sc1 V c t.val).anyNeg := rfl
theorem after1_7 (t : Fin cfg1.N) : (dat1 V c).after 7 t = validOut (F := F) (iblk1 V c 4 t) (iblk1 V c 5 t) := rfl

-- For the six input windows, what the body finds at a point is what it leaves there.
theorem before1 : ∀ w : Fin cfg1.W, w.val < 6 → ∀ (t : Fin cfg1.N) (d), (dat1 V c).before w t d = (dat1 V c).after w t := by
  rintro ⟨_ | _ | _ | _ | _ | _ | _, _⟩ h t d <;>
  first
    | exact absurd h (Nat.not_lt.mpr (Nat.le_add_left 6 _))
    | exact ((dat1 V c).before_in_eq_fetched _ rfl (fun _ => rfl) (fun _ _ _ => rfl) (fun _ => rfl) t d).trans rfl

theorem first1_iff : ∀ t : Fin cfg1.N, first1 (grid1.coords t) ↔ t.val % 32 = 0 :=
  (by decide +kernel : ∀ t : Fin grid1.N, first1 (grid1.coords t) ↔ t.val % 32 = 0)
theorem last1_iff : ∀ t : Fin cfg1.N, k1_cond2 (grid1.coords t) = 1#1 ↔ t.val % 32 = 31 :=
  (by decide +kernel : ∀ t : Fin grid1.N, k1_cond2 (grid1.coords t) = 1#1 ↔ t.val % 32 = 31)
theorem idle1_6 : ∀ t : Fin cfg1.N, cfg1.idle 6 (cfg1.grid.coords t) = !decide (t.val % 32 = 31) :=
  (by decide +kernel : ∀ t : Fin grid1.N, idle1 6 (grid1.coords t) = !decide (t.val % 32 = 31))
theorem idle1_7 : ∀ t : Fin cfg1.N, cfg1.idle 7 (cfg1.grid.coords t) = !decide (t.val % 32 = 31) :=
  (by decide +kernel : ∀ t : Fin grid1.N, idle1 7 (grid1.coords t) = !decide (t.val % 32 = 31))

theorem sound_body1 (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d))
        ∗ (∃ d, owns (c : Thread nD τ) (st1_7 t) fullShare ((dat1 V c).before 7 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t)
            ∗ (dat1 V c).leavesExact 6 t ∗ (dat1 V c).leavesExact 7 t)) := by
  have hΦ : ∀ u, (dat1 V c).Φ u = Phi1 V c u.val := fun _ => rfl
  rw [hΦ, hΦ, show (dat1 V c).owesAt () t.succ = (dat1 V c).owesAt () t.castSucc from rfl]
  simp only [before1 V c 0 (by decide), before1 V c 1 (by decide), before1 V c 2 (by decide), before1 V c 3 (by decide),
    before1 V c 4 (by decide), before1 V c 5 (by decide), Phi1, Fin.coe_castSucc, Fin.val_succ]
  iintro ⟨⟨%s10, %s11, %s12, %s13, %s14, %s15, %hs, S0, S1, S2, S3, S4, S5, Hp, Hw⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ _ _ _ _ _ _ _ _ _ _ _ _
    ((dat1 V c).after 0 t) ((dat1 V c).after 1 t) ((dat1 V c).after 2 t) ((dat1 V c).after 3 t) ((dat1 V c).after 4 t) ((dat1 V c).after 5 t)
    ((dat1 V c).before 6 t d6) ((dat1 V c).before 7 t d7) s10 s11 s12 s13 s14 s15 _)
  simp only [owns_whole]
  isplitl [H0]; swap; isplitl [H1]; swap; isplitl [H2]; swap; isplitl [H3]; swap; isplitl [H4]; swap; isplitl [H5]; swap; isplitl [H6]; swap; isplitl [H7]; swap
  isplitl [S0]; swap; isplitl [S1]; swap; isplitl [S2]; swap; isplitl [S3]; swap; isplitl [S4]; swap; isplitl [S5]; swap
  · iintro ⟨H0, H1, H2, H3, H4, H5, H6, H7, S0, S1, S2, S3, S4, S5⟩
    isplitl [S0 S1 S2 S3 S4 S5 Hp Hw]
    · iexists _, _, _, _, _, _
      isplitr; swap
      · isplitl [S0]; swap; isplitl [S1]; swap; isplitl [S2]; swap; isplitl [S3]; swap; isplitl [S4]; swap; isplitl [S5]; swap; isplitl [Hp]; swap
        all_goals iassumption
      ipureintro; intro _; rw [sc1_succ]; dsimp only
      by_cases h0 : t.val % 32 = 0
      · have hf := (first1_iff t).mpr h0
        unfold newPosHard newPosAll newAnyPos newNegHard newNegAll newAnyNeg
        refine ⟨?_, ?_, ?_, ?_, ?_, ?_⟩ <;> simp only [if_pos hf] <;> rfl
      · obtain ⟨rfl, rfl, rfl, rfl, rfl, rfl⟩ := hs h0
        exact ⟨rfl, rfl, rfl, rfl, rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    by_cases h31 : t.val % 32 = 31
    · have hk := (last1_iff t).mpr h31
      obtain ⟨rfl, rfl, rfl, rfl, rfl, rfl⟩ := hs (by omega)
      unfold Dat.leavesExact
      rw [idle1_6, decide_eq_true h31, Bool.not_true, if_pos hk, if_pos hk]
      dsimp only
      isplitl [H6]; · iexact H6
      iexact H7
    · have hk := fun h => h31 ((last1_iff t).mp h)
      rw [if_neg hk, if_neg hk, Dat.leavesExact_idle _ 6 t (by rw [idle1_6, decide_eq_false h31]; rfl) (Bool.eq_false_iff.mpr fun h => h31 ((flush1_6 t).mp h)),
        Dat.leavesExact_idle _ 7 t (by rw [idle1_7, decide_eq_false h31]; rfl) (Bool.eq_false_iff.mpr fun h => h31 ((flush1_7 t).mp h))]
      isplitl [H6]; · iexists _; iexact H6
      iexists _; iexact H7
  all_goals first | iexact H0 | iexact H1 | iexact H2 | iexact H3 | iexact H4 | iexact H5 | iexact H6 | iexact H7 | iassumption

theorem body_obligation1 : BodyObligation (dat1 (F := F) V c) (defs₀ (F := F)) Variants.none () Set.univ := fun t => by
  rw [bigSep_W1, bigSep_W1]
  exact sound_body1 V c t

theorem phi1_in :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  dsimp only [dat1, Phi1, some1]
  rw [scopedRest1_eq]
  iintro ⟨Hp, G0, G1, G2, G3, G4, G5, G6, G7, G8, G9, G10, G11, G12, G13, ⟨%s10, S0⟩, ⟨%s11, S1⟩, ⟨%s12, S2⟩, ⟨%s13, S3⟩, ⟨%s14, S4⟩, ⟨%s15, S5⟩⟩
  iexists s10, s11, s12, s13, s14, s15
  isplitr
  · ipureintro; intro h; exact absurd rfl h
  iframe
  iintro ⟨T0, T1, T2, T3, T4, T5⟩
  iframe

theorem phi1_out :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  dsimp only [dat1, Phi1, some1]
  iintro ⟨%s10, %s11, %s12, %s13, %s14, %s15, -, S0, S1, S2, S3, S4, S5, Hp, Hw⟩
  isplitl [Hp]; · iexact Hp
  iapply Hw
  isplitl [S0]; swap; isplitl [S1]; swap; isplitl [S2]; swap; isplitl [S3]; swap; isplitl [S4]; swap
  all_goals iexists _; iassumption

end Cert.KernelIdeal.Hand

end
-- ==== Proof.Run.lean ====
import proofs.«144984_j9225589752058_1_alg».proof.Proof.Dat0
import proofs.«144984_j9225589752058_1_alg».proof.Proof.Dat1
import proofs.«144984_j9225589752058_1_alg».proof.Proof.Gen.KernelIdeal.Regions
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev VE0 : (c : Dev nD) → (b : Ref sig .tc) → Buf (Elt F) ((c : Thread nD τ).loc b) :=
  fun c b => StableHlo.after Gen.hostOps0 (fun b => m (c, b)) b

def XE0 (c : Dev nD) : Valuation τ sig (Elt F) :=
  Function.update (Function.update (Gen.V1 m c) main_v2_0 ((dat0 (VE0 m) c).arrAt 4 cfg0.N : Buf (Elt F) ((c : Thread nD τ).loc main_v2_0)))
    main_v2_1 ((dat0 (VE0 m) c).arrAt 5 cfg0.N : Buf (Elt F) ((c : Thread nD τ).loc main_v2_1))

def VE1 : (c : Dev nD) → (b : Ref sig .tc) → Buf (Elt F) ((c : Thread nD τ).loc b) :=
  fun c b => XE0 m c b

def XE1 (c : Dev nD) : Valuation τ sig (Elt F) :=
  Function.update (Function.update (XE0 m c) main_v3_0 ((dat1 (VE1 m) c).arrAt 6 cfg1.N : Buf (Elt F) ((c : Thread nD τ).loc main_v3_0)))
    main_v3_1 ((dat1 (VE1 m) c).arrAt 7 cfg1.N : Buf (Elt F) ((c : Thread nD τ).loc main_v3_1))

def Wfin (c : Dev nD) : Valuation τ sig (Elt F) := StableHlo.after Gen.hostOps2 (XE1 m c)

theorem upd2_of (X : Valuation τ sig (Elt F)) {a b : Ref sig .tc} (x : (Proc.devRef .tc a : DevRef τ sig).ty.Contents (Elt F))
    (y : (Proc.devRef .tc b : DevRef τ sig).ty.Contents (Elt F)) (r : Ref sig .tc) (h : r ∉ [a, b]) :
    Function.update (Function.update X (Proc.devRef .tc a) x) (Proc.devRef .tc b) y (Proc.devRef .tc r) = X (Proc.devRef .tc r) := by
  rw [Function.update_of_ne (StableHlo.devRef_ne_of_ne (List.ne_of_not_mem_cons (List.not_mem_of_not_mem_cons h))),
    Function.update_of_ne (StableHlo.devRef_ne_of_ne (List.ne_of_not_mem_cons h))]
theorem upd2_fst (X : Valuation τ sig (Elt F)) {a b : Ref sig .tc} (x : (Proc.devRef .tc a : DevRef τ sig).ty.Contents (Elt F))
    (y : (Proc.devRef .tc b : DevRef τ sig).ty.Contents (Elt F)) (h : a ≠ b) :
    Function.update (Function.update X (Proc.devRef .tc a) x) (Proc.devRef .tc b) y (Proc.devRef .tc a) = x := by
  rw [Function.update_of_ne (StableHlo.devRef_ne_of_ne h), Function.update_self]

theorem XE0_of (c : Dev nD) (r : Ref sig .tc) (h : r ∉ ([main_v2_0, main_v2_1] : List (Ref sig .tc))) : XE0 m c r = Gen.V1 m c r :=
  upd2_of _ _ _ r h
theorem XE1_of (c : Dev nD) (r : Ref sig .tc) (h : r ∉ ([main_v3_0, main_v3_1] : List (Ref sig .tc))) : XE1 m c r = XE0 m c r :=
  upd2_of _ _ _ r h
theorem XE1_v3_0 (c : Dev nD) : XE1 m c main_v3_0 = (dat1 (VE1 m) c).arrAt 6 cfg1.N := upd2_fst _ _ _ (by decide)
theorem XE1_v3_1 (c : Dev nD) : XE1 m c main_v3_1 = (dat1 (VE1 m) c).arrAt 7 cfg1.N := Function.update_self ..

theorem VE0_arg0 (c : Dev nD) : VE0 m c main_arg0 = m ((c : Thread nD τ).loc main_arg0) :=
  (Gen.V1_of m c main_arg0 (by decide)).trans rfl
theorem VE0_v0 (c : Dev nD) : VE0 m c main_v0 = shapeCast S8192x1 (m ((c : Thread nD τ).loc main_arg1)) shapeCasts_S8192_S8192x1 := by
  show StableHlo.after Gen.hostOps0 (Gen.V0 m c) (Proc.devRef .tc main_v0) = _
  after_results
  rfl
theorem VE0_v1 (c : Dev nD) : VE0 m c main_v1 = shapeCast S1x8192 (m ((c : Thread nD τ).loc main_arg1)) shapeCasts_S8192_S1x8192 := by
  show StableHlo.after Gen.hostOps0 (Gen.V0 m c) (Proc.devRef .tc main_v1) = _
  after_results
  rfl

theorem VE1_arg0 (c : Dev nD) : VE1 m c main_arg0 = VE0 m c main_arg0 := XE0_of m c main_arg0 (by decide)
theorem VE1_v0 (c : Dev nD) : VE1 m c main_v0 = VE0 m c main_v0 := XE0_of m c main_v0 (by decide)
theorem VE1_v1 (c : Dev nD) : VE1 m c main_v1 = VE0 m c main_v1 := XE0_of m c main_v1 (by decide)
theorem VE1_v2_0 (c : Dev nD) : VE1 m c main_v2_0 = (dat0 (VE0 m) c).arrAt 4 cfg0.N :=
  show XE0 m c main_v2_0 = _ from upd2_fst _ _ _ (by decide)
theorem VE1_v2_1 (c : Dev nD) : VE1 m c main_v2_1 = (dat0 (VE0 m) c).arrAt 5 cfg0.N :=
  show XE0 m c main_v2_1 = _ from Function.update_self ..

theorem Wfin_arg0 (c : Dev nD) : Wfin m c (Proc.devRef .tc main_arg0) = m ((c : Thread nD τ).loc main_arg0) :=
  (StableHlo.after_of_writes_sub Gen.hostOps2 _ Gen.hostOps2_writes (by decide)).trans <| (XE1_of m c main_arg0 (by decide)).trans <|
    (XE0_of m c main_arg0 (by decide)).trans <| (Gen.V1_of m c main_arg0 (by decide)).trans rfl
theorem Wfin_arg1 (c : Dev nD) : Wfin m c (Proc.devRef .tc main_arg1) = m ((c : Thread nD τ).loc main_arg1) :=
  (StableHlo.after_of_writes_sub Gen.hostOps2 _ Gen.hostOps2_writes (by decide)).trans <| (XE1_of m c main_arg1 (by decide)).trans <|
    (XE0_of m c main_arg1 (by decide)).trans <| (Gen.V1_of m c main_arg1 (by decide)).trans rfl

theorem Wfin_v7 (c : Dev nD) : Wfin m c (Proc.devRef .tc main_v7)
    = Host.divf (Host.reduceAdd ((dat1 (VE1 m) c).arrAt 6 cfg1.N) (constant S_ .f32 0x00000000#32) reducesTo_S8192x1_S_d0_1 h_S_)
        (maximumf (Host.reduceAdd ((dat1 (VE1 m) c).arrAt 7 cfg1.N) (constant S_ .f32 0x00000000#32) reducesTo_S8192x1_S_d0_1 h_S_)
          (constant S_ .f32 0x3F800000#32)) := by
  unfold Wfin
  after_results
  rw [XE1_v3_0, XE1_v3_1]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Arrays

variable (V : (c : Dev nD) → (b : Ref sig .tc) → Buf (Elt F) ((c : Thread nD τ).loc b)) (c : Dev nD)
  (W : (b : Ref sig .tc) → Buf (Elt F) ((c : Thread nD τ).loc b))

theorem arrBufs0_eq : (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

theorem arrBufs1_eq : (Pipeline.arrBufs spec1 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1) ∗ (((c : Thread nD τ).loc main_v3_0) ↦{fullShare} W main_v3_0)
          ∗ (((c : Thread nD τ).loc main_v3_1) ↦{fullShare} W main_v3_1)) := by
  unfold Pipeline.arrBufs
  exact bigSep_eq_bigSepL_of_eq [main_arg0, main_v0, main_v1, main_v2_0, main_v2_1, main_v3_0, main_v3_1] (by decide) (by decide) _

theorem arrays_univ {Λ₀ : Labels} {cfg : Pipeline.Cfg sig Λ₀} (d : Dat τ (Elt F) Unit ℕ (UR sig nD τ) ℕ cfg c) (hw : ∀ w, (cfg.win w).arr.IsWhole)
    (G : (w : Fin cfg.W) → Buf (Elt F) ((cfg.win w).arr.view.loc (c : Thread nD τ))) :
    (d.arrays G : sProp 𝕄) = bigSep Finset.univ fun w => (((cfg.win w).arr.view.loc (c : Thread nD τ)) ↦{d.share w} G w : sProp 𝕄) := by
  unfold Dat.arrays
  exact bigSep_congr fun w _ => by rw [(hw w).set_eq_univ]

theorem arrays0_eq (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  rw [arrays_univ c _ arr_whole0, bigSep_W0]
  rfl

theorem arrays1_eq (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)
          ∗ (((c : Thread nD τ).loc main_v3_0) ↦{fullShare} G 6) ∗ (((c : Thread nD τ).loc main_v3_1) ↦{fullShare} G 7)) := by
  rw [arrays_univ c _ arr_whole1, bigSep_W1]
  rfl

theorem hsplit : ((Pipeline.arrBufs spec0 c (V c) : sProp 𝕄) ⊢ (dat0 V c).arrays ((dat0 V c).arrAt · 0))
    ∧ ((Pipeline.arrBufs spec1 c (V c) : sProp 𝕄) ⊢ (dat1 V c).arrays ((dat1 V c).arrAt · 0)) := by
  constructor <;>
  · first | rw [arrBufs0_eq, arrays0_eq] | rw [arrBufs1_eq, arrays1_eq]
    iintro ⟨H0, H⟩
    ihave H0' := (pointsTo_share (PosShare.mem_left_op_right fullShare)).1 $$ H0
    icases H0' with ⟨Hl, Hr⟩
    isplitl [Hl]; · iexact Hl
    isplitl [Hr]; · iexact Hr
    iexact H

theorem hjoin0 (h : ∀ r, r ∉ ([main_v2_0, main_v2_1] : List (Ref sig .tc)) → W r = V c r)
    (h4 : W main_v2_0 = (dat0 V c).arrAt 4 cfg0.N) (h5 : W main_v2_1 = (dat0 V c).arrAt 5 cfg0.N) :
    ((dat0 V c).arrays ((dat0 V c).arrAt · cfg0.N) : sProp 𝕄) ⊢ Pipeline.arrBufs spec0 c W := by
  rw [arrBufs0_eq, arrays0_eq, h main_arg0 (by decide), h main_v0 (by decide), h main_v1 (by decide), h4, h5,
    (dat0 V c).arrAt_in 0 rfl, (dat0 V c).arrAt_in 1 rfl, (dat0 V c).arrAt_in 2 rfl, (dat0 V c).arrAt_in 3 rfl]
  iintro ⟨Hl, Hr, H⟩
  isplitl [Hl Hr]
  · iapply (pointsTo_share (PosShare.mem_left_op_right fullShare)).2
    isplitl [Hl]; · iexact Hl
    iexact Hr
  iexact H

theorem hjoin1 (h : ∀ r, r ∉ ([main_v3_0, main_v3_1] : List (Ref sig .tc)) → W r = V c r)
    (h6 : W main_v3_0 = (dat1 V c).arrAt 6 cfg1.N) (h7 : W main_v3_1 = (dat1 V c).arrAt 7 cfg1.N) :
    ((dat1 V c).arrays ((dat1 V c).arrAt · cfg1.N) : sProp 𝕄) ⊢ Pipeline.arrBufs spec1 c W := by
  rw [arrBufs1_eq, arrays1_eq, h main_arg0 (by decide), h main_v0 (by decide), h main_v1 (by decide), h main_v2_0 (by decide),
    h main_v2_1 (by decide), h6, h7,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨Hl, Hr, H⟩
  isplitl [Hl Hr]
  · iapply (pointsTo_share (PosShare.mem_left_op_right fullShare)).2
    isplitl [Hl]; · iexact Hl
    iexact Hr
  iexact H

end Arrays

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ub_split0 (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs 0 winFacts₀0.arr_unscoped c W
theorem ub_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

theorem rest_congr {gr W : ℕ} (spec : Fin W → Pipeline.WinSpec sig gr) (c : Dev nD) (A B : (b : Ref sig .tc) → Buf (Elt F) ((c : Thread nD τ).loc b))
    (l : List (Ref sig .tc)) (hl : ∀ b ∈ l, b ∈ Finset.univ.image (Pipeline.arrRef spec)) (h : ∀ b, b ∉ l → A b = B b) :
    (Pipeline.unscopedRest spec c A : sProp 𝕄) = Pipeline.unscopedRest spec c B := by
  unfold Pipeline.unscopedRest
  exact bigSep_congr fun b hb => by rw [h b fun hm => (Finset.mem_sdiff.mp hb).2 (hl b hm)]

set_option backward.isDefEq.respectTransparency.types false in
def regs : RegionSeg (pcfgs (F := F)) adm (pdats m) () defs₀ 𝒱₀ L lv 0 × RegionSeg (pcfgs (F := F)) adm (pdats m) () defs₀ 𝒱₀ L lv 1 := by
  refine ⟨{ win := winFacts₀0, block_pos := block_pos0, stage_whole := stage_whole0, K := PEmpty, osem := fun k => k.elim
            ho := Pipeline.OwnSemFacts.none _, hbody := fun c => (body_obligation0 (VE0 m) c).loose
            hwaits := Pipeline.hwaits_of_owed_zero _ _ _ _ L lv 0 fun _ _ => rfl
            pre := fun c => iprop(StableHlo.held (c : Thread nD τ) (Pipeline.ucRefs τ sig) (Gen.V1 m c) ∗ R c)
            post := fun c => iprop(StableHlo.held (c : Thread nD τ) (Pipeline.ucRefs τ sig) (XE0 m c) ∗ R c)
            X := fun c => iprop(∃ r, prngReg c r), Y := fun c => iprop(∃ r, prngReg c r)
            Z := fun c => Pipeline.unscopedRest spec0 c (VE0 m c)
            hentry := fun c => (have hu := ub_split0 (F := F) c; have hs := (hsplit (VE0 m) c).1; ?e0)
            hin := fun c => (have hi := phi0_in (VE0 m) c; ?i0)
            hout := fun c => (have ho := phi0_out (VE0 m) c; ?o0)
            hexit := fun c => (have hu := ub_split0 (F := F) c; have hr := rest_congr spec0 c (fun b => XE0 m c b) (VE0 m c) _ (by decide) (XE0_of m c)
              have hj := hjoin0 (VE0 m) c (fun b => XE0 m c b) (XE0_of m c) (VE1_v2_0 m c) (VE1_v2_1 m c); ?x0) },
          { win := winFacts₀1, block_pos := block_pos1, stage_whole := stage_whole1, K := PEmpty, osem := fun k => k.elim
            ho := Pipeline.OwnSemFacts.none _, hbody := fun c => (body_obligation1 (VE1 m) c).loose
            hwaits := Pipeline.hwaits_of_owed_zero _ _ _ _ L lv 1 fun _ _ => rfl
            pre := fun c => iprop(StableHlo.held (c : Thread nD τ) (Pipeline.ucRefs τ sig) (XE0 m c) ∗ R c)
            post := fun c => iprop(StableHlo.held (c : Thread nD τ) (Pipeline.ucRefs τ sig) (XE1 m c) ∗ R c)
            X := fun c => iprop(∃ r, prngReg c r), Y := fun c => iprop(∃ r, prngReg c r)
            Z := fun c => Pipeline.unscopedRest spec1 c (VE1 m c)
            hentry := fun c => (have hu := ub_split1 (F := F) c; have hs := (hsplit (VE1 m) c).2; ?e1)
            hin := fun c => (have hi := phi1_in (VE1 m) c; ?i1)
            hout := fun c => (have ho := phi1_out (VE1 m) c; ?o1)
            hexit := fun c => (have hu := ub_split1 (F := F) c; have hr := rest_congr spec1 c (fun b => XE1 m c b) (VE1 m c) _ (by decide) (XE1_of m c)
              have hj := hjoin1 (VE1 m) c (fun b => XE1 m c b) (XE1_of m c) (XE1_v3_0 m c) (XE1_v3_1 m c); ?x1) }⟩
  case e0 | e1 =>
    rw [Pipeline.ownSems0_none, ← Pipeline.unscopedBufs_held (Ix := Unit) (Name := ℕ) (U := UR sig nD τ) (Lvl := ℕ), hu]
    iintro ⟨⟨⟨Hab, Hrest⟩, Hp, HO⟩, -, -⟩
    imodintro
    isplitl [Hab]; · iapply hs; iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  case i0 | i1 =>
    refine .trans ?_ hi
    iintro ⟨HX, -, Hr⟩; isplitl [HX] <;> iassumption
  case o0 | o1 =>
    refine ho.trans ?_
    rw [Pipeline.ownSems0_none]
    iintro ⟨HY, Hr⟩
    isplitl [HY]; · iexact HY
    isplitr; · iempintro
    iexact Hr
  case x0 | x1 =>
    rw [← Pipeline.unscopedBufs_held (Ix := Unit) (Name := ℕ) (U := UR sig nD τ) (Lvl := ℕ), hu, hr]
    iintro ⟨Ha, HO, HY, Hrest⟩
    imodintro
    isplitl [Ha Hrest]
    · isplitl [Ha]; swap; · iexact Hrest
      iapply hj; iexact Ha
    isplitl [HY]; · iexact HY
    unfold Pipeline.Dat.owesAt Pipeline.owesWithin
    icases HO with ⟨%W, -, HO⟩; iexists W; iexact HO

abbrev segs : List (Seg (pcfgs (F := F)) adm (pdats m) () defs₀ 𝒱₀ L lv) :=
  [ .host (hseg hostOps0 hostOps0_sub Gen.hostOps0_fresh (Gen.V0 m)),
    .region (regs m).1,
    .region (regs m).2,
    .host (hseg hostOps2 hostOps2_sub Gen.hostOps2_fresh (XE1 m)) ]
theorem main_run (c : Dev nD) : main (F := F) c = Seg.run (segs m) := (main_chain c).trans (by chain_rfl)
set_option backward.isDefEq.respectTransparency.types false in
theorem run_main (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Wfin m c b) :=
  Pipeline.θ_run_regions_kit (pcfgs (F := F)) adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl)
        iexact Hu
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Wfin m c) ∗ ∃ r, prngReg c r))
    (hch := ⟨fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m c b)
    (hfin := fun c s' => by
      iintro ⟨⟨Hh, -⟩, HSI⟩
      unfold StableHlo.held
      imodintro
      iapply (pointsTo_read_all (Pipeline.ucRefs τ sig) (fun b => (((c : Thread nD τ)).1, b)) (Wfin m c) s')
      isplitl [Hh] <;> iassumption)
    (hQ := fun s h => h)
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_main m ρ).mono fun r h c =>
    ⟨(h c _ (mem_uc main_arg0 (by decide))).trans (Wfin_arg0 m c), (h c _ (mem_uc main_arg1 (by decide))).trans (Wfin_arg1 m c)⟩
end Cert.KernelIdeal.Hand
end
-- ==== Proof.Spec.lean ====
import Idealize.ShloMosaic.PureOps.Ideal
import Mathlib.Order.CompleteLattice.Finset
import Mathlib.Algebra.BigOperators.Group.Finset.Basic

noncomputable section

namespace Cert.Spec

open Idealize.ShloMosaic
open scoped Classical

abbrev lit (b : BitVec 32) : EReal := Ideal.ofBits .f32 b

section
variable (e : Fin 8192 → Fin 128 → EReal) (lr lc : Fin 8192 → BitVec 32)

def sim (r c : Fin 8192) : EReal := ∑ k : Fin 128, e r k * e c k
def pos (r c : Fin 8192) : Bool := decide (lr r = lc c) && !decide (r = c)
def neg (r c : Fin 8192) : Bool := !decide (lr r = lc c)
def posMin (r : Fin 8192) : EReal := Finset.univ.inf fun c => if pos lr lc r c then sim e r c else ⊤
def negMax (r : Fin 8192) : EReal := Finset.univ.sup fun c => if neg lr lc r c then sim e r c else ⊥

variable (pm nm : Fin 8192 → EReal)

-- A negative is hard when its similarity plus the margin exceeds pm r, a positive when its similarity minus the margin is below nm r.
def negHard (r c : Fin 8192) : Bool := neg lr lc r c && decide (pm r < sim e r c + lit 0x3DCCCCCD#32)
def posHard (r c : Fin 8192) : Bool := pos lr lc r c && decide (sim e r c - lit 0x3DCCCCCD#32 < nm r)
def ePos (r c : Fin 8192) : EReal := Ideal.exp (lit 0xC0000000#32 * (sim e r c - lit 0x3F000000#32))
def eNeg (r c : Fin 8192) : EReal := Ideal.exp (lit 0x42480000#32 * (sim e r c - lit 0x3F000000#32))
def posHardSum (r : Fin 8192) : EReal := ∑ c, if posHard e lr lc nm r c then ePos e r c else 0
def posAllSum (r : Fin 8192) : EReal := ∑ c, if pos lr lc r c then ePos e r c else 0
def negHardSum (r : Fin 8192) : EReal := ∑ c, if negHard e lr lc pm r c then eNeg e r c else 0
def negAllSum (r : Fin 8192) : EReal := ∑ c, if neg lr lc r c then eNeg e r c else 0
-- The hard pairs' sum if the row has a hard pair, else the sum over all pairs of the kind.
def posSum (r : Fin 8192) : EReal := if ∃ c, posHard e lr lc nm r c = true then posHardSum e lr lc nm r else posAllSum e lr lc r
def negSum (r : Fin 8192) : EReal := if ∃ c, negHard e lr lc pm r c = true then negHardSum e lr lc pm r else negAllSum e lr lc r
def rowLoss (r : Fin 8192) : EReal :=
  Ideal.div (Ideal.log1p (posSum e lr lc nm r)) (lit 0x40000000#32) + Ideal.div (Ideal.log1p (negSum e lr lc pm r)) (lit 0x42480000#32)

-- Validity as the kernel decides it, from the two thresholds.
def validK (r : Fin 8192) : Bool := decide (pm r ≠ ⊤) && decide (nm r ≠ ⊥)
-- Validity as the reference decides it, from the labels.
def validR (r : Fin 8192) : Bool := decide (∃ c, pos lr lc r c = true) && decide (∃ c, neg lr lc r c = true)

-- The valid rows' losses summed, over the greater of their number and 1.
def total (loss : Fin 8192 → EReal) (valid : Fin 8192 → Bool) : EReal :=
  Ideal.div (∑ r, if valid r then loss r else 0) (max (∑ r, if valid r then (1 : EReal) else 0) 1)
end

def lossK (e : Fin 8192 → Fin 128 → EReal) (l : Fin 8192 → BitVec 32) : EReal :=
  total (rowLoss e l l (posMin e l l) (negMax e l l)) (validK (posMin e l l) (negMax e l l))
def lossR (e : Fin 8192 → Fin 128 → EReal) (l : Fin 8192 → BitVec 32) : EReal :=
  total (rowLoss e l l (posMin e l l) (negMax e l l)) (validR l l)

end Cert.Spec

end
-- ==== Proof.Arrays.lean ====
import proofs.«144984_j9225589752058_1_alg».proof.Proof.Gen.KernelIdeal
import Idealize.ShloMosaic.PureOps.Ideal
import Idealize.ShloMosaic.Lib.ValueIdx

noncomputable section

namespace Cert.KernelIdeal.Hand

open Cert.KernelIdeal
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

def embOf : Fin 8192 → Fin 128 → EReal := fun r k => (V c main_arg0 : Vec Ideal S8192x128 .f32) (ix2 r k)
def rowLab : Fin 8192 → BitVec 32 := fun r => (V c main_v0 : Vec Ideal S8192x1 .i32) (ix2 r (0 : Fin 1))
def colLab : Fin 8192 → BitVec 32 := fun r => (V c main_v1 : Vec Ideal S1x8192 .i32) (ix2 (0 : Fin 1) r)
def pmOf : Fin 8192 → EReal := fun r => (V c main_v2_0 : Vec Ideal S8192x1 .f32) (ix2 r (0 : Fin 1))
def nmOf : Fin 8192 → EReal := fun r => (V c main_v2_1 : Vec Ideal S8192x1 .f32) (ix2 r (0 : Fin 1))

end Cert.KernelIdeal.Hand

end
-- ==== Proof.Tiles.lean ====
import proofs.«144984_j9225589752058_1_alg».proof.Proof.Gen.KernelIdeal.Launch
import proofs.«144984_j9225589752058_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

def rowOf (t : Fin 256) (p : Fin 1024) : Fin 8192 := ⟨1024 * (t.val / 32) + p.val, by have := t.isLt; have := p.isLt; omega⟩
def colOf (t : Fin 256) (q : Fin 256) : Fin 8192 := ⟨256 * (t.val % 32) + q.val, by have := t.isLt; have := q.isLt; omega⟩
def pt0 (t : Fin cfg0.N) : Fin 256 := ⟨t.val, Nat.lt_of_lt_of_eq t.isLt N_0⟩
def pt1 (t : Fin cfg1.N) : Fin 256 := ⟨t.val, Nat.lt_of_lt_of_eq t.isLt N_1⟩

-- A rank-2 index is determined by its two coordinates.
theorem ix2_ext {a b : ℕ} {i : (⟨2, ![a, b]⟩ : Shape).Idx} {x : Fin a} {y : Fin b} (h0 : (i 0).val = x.val) (h1 : (i 1).val = y.val) :
    i = ix2 x y :=
  funext fun d => Fin.ext (match d with
    | ⟨0, _⟩ => h0
    | ⟨1, _⟩ => h1)

theorem andi_at {s : Shape} {w : ℕ} (x y : IVec s w) (i : s.Idx) : andi x y i = IntOp.andi (x i) (y i) := rfl
theorem xori_at {s : Shape} {w : ℕ} (x y : IVec s w) (i : s.Idx) : xori x y i = IntOp.xori (x i) (y i) := rfl
theorem addi_at {s : Shape} {w : ℕ} (x y : IVec s w) (i : s.Idx) : addi x y i = IntOp.addi (x i) (y i) := rfl
theorem cmpi_at {s : Shape} {w : ℕ} (pr : CmpIPredicate) (x y : IVec s w) (i : s.Idx) : cmpi pr x y i = IntOp.cmpi pr (x i) (y i) := rfl

section Dot
variable (i : S1024x256.Idx) (q : dot_S1024x128_S128x256_S1024x256_1_0_0_1_n_n.contr.Idx)

theorem lhsAx0 : (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem rhsAx1 : (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl
end Dot

-- The tile's product at (p, q) contracts row p of the row block with row q of the column block.
theorem sim_tile (x0 : Vec Ideal S1024x128 .f32) (x1 : Vec Ideal S256x128 .f32) (p : Fin 1024) (q : Fin 256) :
    k0_pay5 x0 x1 (ix2 p q) = ∑ k : Fin 128, x0 (ix2 p k) * x1 (ix2 q k) := by
  unfold k0_pay5
  simp only [matmul]
  rw [Ideal.matmul_constant_zero_apply, ← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  rw [ix2_ext (x := p) (y := k) (lhsAx0 _ _) ((dot_S1024x128_S128x256_S1024x256_1_0_0_1_n_n.lhsIdx_val_of_single rfl _ _).trans hk), truncf_apply]
  refine congrArg (x0 (ix2 p k) * ·) ((transpose_apply [1, 0] _ transposes_S256x128_p1_0_S128x256 _ (ix2 q k) fun b => ?_).trans rfl)
  match b with
  | ⟨0, _⟩ => exact ((dot_S1024x128_S128x256_S1024x256_1_0_0_1_n_n.rhsIdx_val_of_single rfl (ix2 p q) _).trans hk).symm
  | ⟨1, _⟩ => exact (rhsAx1 (ix2 p q) _).symm

theorem bcast_col {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cast_col {a : ℕ} {α : Type} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

theorem agree_tile (x2 : Vec Ideal S1024x1 .i32) (x3 : Vec Ideal S1x256 .i32) (p : Fin 1024) (q : Fin 256) :
    k0_pay6 (F := Ideal) x2 x3 (ix2 p q) = IntOp.cmpi .eq (x2 (ix2 p (0 : Fin 1))) (x3 (ix2 (0 : Fin 1) q)) := by
  unfold k0_pay6
  show IntOp.cmpi .eq (broadcastTo S1024x256 (shapeCast S1024x1 x2 shapeCasts_S1024x1_S1024x1) broadcasts_S1024x1_S1024x256 (ix2 p q))
      (broadcastTo S1024x256 (shapeCast S1x256 x3 shapeCasts_S1x256_S1x256) broadcasts_S1x256_S1024x256 (ix2 p q)) = _
  rw [shapeCast_self, shapeCast_self, bcast_col, broadcastTo_1b_ab_apply]

-- Matrix row 1024 a + p and matrix column 256 b + q stay below 2^32, so their words agree exactly when they do.
theorem word_eq_iff (a b p q : ℕ) (ha : a < 8) (hb : b < 32) (hp : p < 1024) (hq : q < 256) :
    (Scalar.muli (BitVec.ofNat 32 a) 1024#32 + BitVec.ofNat 32 p = Scalar.muli (BitVec.ofNat 32 b) 256#32 + BitVec.ofNat 32 q)
      ↔ 1024 * a + p = 256 * b + q := by
  unfold Scalar.muli IntOp.muli
  rw [← BitVec.toNat_inj]
  simp only [BitVec.toNat_add, BitVec.toNat_mul, BitVec.toNat_ofNat]
  omega

theorem inf_bits : (FloatOps.ofBits (F := Ideal) .f32 0x7F800000#32 : EReal) = ⊤ := by
  show Ideal.ofBits .f32 0x7F800000#32 = ⊤
  simp [Ideal.ofBits, Ideal.ieee]

theorem ninf_bits : (FloatOps.ofBits (F := Ideal) .f32 0xFF800000#32 : EReal) = ⊥ := by
  show Ideal.ofBits .f32 0xFF800000#32 = ⊥
  simp [Ideal.ofBits, Ideal.ieee]

theorem lift_lane (p : Fin 1024) (q : Fin 256) : reduces_S1024x256_S1024.lift (ix1 p) q = ix2 p q :=
  ix2_ext rfl rfl

section Lane
variable (src : FVec Ideal S1024x256 .f32) (hφ : FKind.Formats .f32) (p : Fin 1024)

theorem lane_min (hacc : (0x7F800000#32 : BitVec 32) = FKind.minimumf.neutral .f32 hφ) :
    multiReduction .minimumf [1] S1024 src 0x7F800000#32 reduces_S1024x256_S1024 hφ hacc (ix1 p)
      = Finset.univ.inf fun q : Fin 256 => src (ix2 p q) := by
  rw [multiReduction_minimumf_eq_fold, reduces_S1024x256_S1024.fold_filter_drop_single, inf_bits,
    show src ∘ reduces_S1024x256_S1024.lift (ix1 p) = fun q : Fin 256 => src (ix2 p q) from funext fun q => congrArg src (lift_lane p q)]
  rfl

theorem lane_max (hacc : (0xFF800000#32 : BitVec 32) = FKind.maximumf.neutral .f32 hφ) :
    multiReduction .maximumf [1] S1024 src 0xFF800000#32 reduces_S1024x256_S1024 hφ hacc (ix1 p)
      = Finset.univ.sup fun q : Fin 256 => src (ix2 p q) := by
  rw [multiReduction_maximumf_eq_fold, reduces_S1024x256_S1024.fold_filter_drop_single, ninf_bits,
    show src ∘ reduces_S1024x256_S1024.lift (ix1 p) = fun q : Fin 256 => src (ix2 p q) from funext fun q => congrArg src (lift_lane p q)]
  rfl
end Lane

end Cert.KernelIdeal.Hand

end
-- ==== Proof.Val0.lean ====
import proofs.«144984_j9225589752058_1_alg».proof.Proof.Dat0
import proofs.«144984_j9225589752058_1_alg».proof.Proof.Spec
import proofs.«144984_j9225589752058_1_alg».proof.Proof.Arrays
import proofs.«144984_j9225589752058_1_alg».proof.Proof.Tiles

noncomputable section

namespace Cert.KernelIdeal.Hand

open Cert.KernelIdeal Cert.KernelIdeal.Gen
open Idealize.ShloMosaic Idealize.ShloMosaic.TcCoe Idealize.ShloMosaic.ValueIdx Idealize.SL.Sem
open scoped Classical

namespace Pass1

theorem mask_bit (d g : BitVec 1) : IntOp.andi g (IntOp.xori d 1#1) = 1#1 ↔ g = 1#1 ∧ ¬ d = 1#1 := by
  revert d g; decide

theorem nmask_bit (g : BitVec 1) : IntOp.xori g 1#1 = 1#1 ↔ ¬ g = 1#1 := by
  revert g; decide

section Tile
variable (x0 : Vec Ideal S1024x128 .f32) (x1 : Vec Ideal S256x128 .f32) (x2 : Vec Ideal S1024x1 .i32) (x3 : Vec Ideal S1x256 .i32) (p : Fin 1024)

-- The tile's row minima: over the tile's columns whose label agrees with the row's and which are not the row itself.
theorem min_tile (i : grid0.Coords) :
    k0_pay7 (F := Ideal) i x0 x1 x2 x3 (ix2 p (0 : Fin 1))
      = Finset.univ.inf fun q : Fin 256 =>
          if x2 (ix2 p (0 : Fin 1)) = x3 (ix2 (0 : Fin 1) q) ∧ ¬ 1024 * (i 0).val + p.val = 256 * (i 1).val + q.val
          then ∑ k : Fin 128, x0 (ix2 p k) * x1 (ix2 q k) else ⊤ := by
  unfold k0_pay7
  dsimp only
  refine ((cast_col _ shapeCasts_S1024_S1024x1 p).trans (lane_min _ (.inl rfl) p rfl)).trans (Finset.inf_congr rfl fun q _ => ?_)
  rw [select_apply, andi_at, xori_at, cmpi_at, constantI_apply, broadcast_apply, agree_tile, sim_tile, bcast_col,
    broadcastTo_1b_ab_apply, addi_at, addi_at, broadcast_apply, broadcast_apply, iota_single_apply, iota_single_apply]
  unfold Scalar.select
  refine if_congr ?_ rfl inf_bits
  show _ = 1#1 ↔ _
  rw [mask_bit, IntOp.cmpi_eq]
  exact and_congr Iff.rfl (not_congr (IntOp.cmpi_eq.trans (word_eq_iff _ _ _ _ (i 0).isLt (i 1).isLt p.isLt q.isLt)))

-- The tile's row maxima: over the tile's columns whose label differs.
theorem max_tile :
    k0_pay8 (F := Ideal) x0 x1 x2 x3 (ix2 p (0 : Fin 1))
      = Finset.univ.sup fun q : Fin 256 =>
          if ¬ x2 (ix2 p (0 : Fin 1)) = x3 (ix2 (0 : Fin 1) q)
          then ∑ k : Fin 128, x0 (ix2 p k) * x1 (ix2 q k) else ⊥ := by
  unfold k0_pay8
  dsimp only
  refine ((cast_col _ shapeCasts_S1024_S1024x1 p).trans (lane_max _ (.inl rfl) p rfl)).trans (Finset.sup_congr rfl fun q _ => ?_)
  rw [select_apply, xori_at, constantI_apply, broadcast_apply, agree_tile, sim_tile]
  unfold Scalar.select
  refine if_congr ?_ rfl ninf_bits
  show _ = 1#1 ↔ _
  rw [nmask_bit, IntOp.cmpi_eq]
end Tile

variable (V : (c : Dev nD) → (b : Ref sig .tc) → Buf (Elt Ideal) ((c : Thread nD τ).loc b))

-- Point t is column tile t mod 32 of row tile t / 32.
theorem pt_facts : ∀ t : Fin cfg0.N, (grid0.coords t 0).val = t.val / 32 ∧ (grid0.coords t 1).val = t.val % 32
    ∧ win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = 0
    ∧ win0_5.index t (0 : Fin 2) = t.val / 32 ∧ win0_5.index t (1 : Fin 2) = 0 :=
  (by decide +kernel : ∀ t : Fin grid0.N, _)

section Blocks
variable (c : Dev nD) (t : Fin cfg0.N) (p : Fin 1024) (q : Fin 256) (k : Fin 128)

theorem blk0_read : (iblk0 V c 0 t : Vec Ideal S1024x128 .f32) (ix2 p k) = embOf V c (rowOf (pt0 t) p) k := by
  obtain ⟨-, -, e0, e1, -⟩ := pt_facts t
  exact congrArg (V c main_arg0 : Vec Ideal S8192x128 .f32) (ix2_ext (by show win0_0.index t (0 : Fin 2) * 1024 + 1 * p.val = 1024 * (t.val / 32) + p.val; omega)
    (by show win0_0.index t (1 : Fin 2) * 128 + 1 * k.val = k.val; omega))

theorem blk1_read : (iblk0 V c 1 t : Vec Ideal S256x128 .f32) (ix2 q k) = embOf V c (colOf (pt0 t) q) k := by
  obtain ⟨-, -, -, -, e0, e1, -⟩ := pt_facts t
  exact congrArg (V c main_arg0 : Vec Ideal S8192x128 .f32) (ix2_ext (by show win0_1.index t (0 : Fin 2) * 256 + 1 * q.val = 256 * (t.val % 32) + q.val; omega)
    (by show win0_1.index t (1 : Fin 2) * 128 + 1 * k.val = k.val; omega))

theorem blk2_read : (iblk0 V c 2 t : Vec Ideal S1024x1 .i32) (ix2 p (0 : Fin 1)) = rowLab V c (rowOf (pt0 t) p) := by
  obtain ⟨-, -, -, -, -, -, e0, e1, -⟩ := pt_facts t
  exact congrArg (V c main_v0 : Vec Ideal S8192x1 .i32) (ix2_ext (by show win0_2.index t (0 : Fin 2) * 1024 + 1 * p.val = 1024 * (t.val / 32) + p.val; omega)
    (by show win0_2.index t (1 : Fin 2) * 1 + 1 * 0 = 0; omega))

theorem blk3_read : (iblk0 V c 3 t : Vec Ideal S1x256 .i32) (ix2 (0 : Fin 1) q) = colLab V c (colOf (pt0 t) q) := by
  obtain ⟨-, -, -, -, -, -, -, -, e0, e1, -⟩ := pt_facts t
  exact congrArg (V c main_v1 : Vec Ideal S1x8192 .i32) (ix2_ext (by show win0_3.index t (0 : Fin 2) * 1 + 1 * 0 = 0; omega)
    (by show win0_3.index t (1 : Fin 2) * 256 + 1 * q.val = 256 * (t.val % 32) + q.val; omega))
end Blocks

theorem pay3_at (p : Fin 1024) : (k0_pay3 (F := Ideal)) (ix2 p (0 : Fin 1)) = ⊤ := by
  unfold k0_pay3
  rw [shapeCast_self, broadcast_apply]
  exact inf_bits

theorem pay4_at (p : Fin 1024) : (k0_pay4 (F := Ideal)) (ix2 p (0 : Fin 1)) = ⊥ := by
  unfold k0_pay4
  rw [shapeCast_self, broadcast_apply]
  exact ninf_bits

-- One tile folded into the running minimum: the column's value (+inf at a first tile) against the least similarity among the row's positives inside the tile.
theorem tile_min (c : Dev nD) (t : Fin cfg0.N) (p : Fin 1024) (s : Vec Ideal S1024x1 .f32) :
    newMin0 (grid0.coords t) (iblk0 V c 0 t) (iblk0 V c 1 t) (iblk0 V c 2 t) (iblk0 V c 3 t) s (ix2 p (0 : Fin 1))
      = min (if t.val % 32 = 0 then ⊤ else s (ix2 p (0 : Fin 1)))
          (Finset.univ.inf fun q : Fin 256 =>
            if Cert.Spec.pos (rowLab V c) (colLab V c) (rowOf (pt0 t) p) (colOf (pt0 t) q)
            then Cert.Spec.sim (embOf V c) (rowOf (pt0 t) p) (colOf (pt0 t) q) else ⊤) := by
  obtain ⟨g0, g1, -⟩ := pt_facts t
  unfold newMin0 k0_pay1
  rw [shapeCast_self, minimumf_apply]
  refine congrArg₂ min ?_ ?_
  · by_cases h0 : t.val % 32 = 0
    · rw [if_pos ((first0_iff t).2 h0), if_pos h0]; exact pay3_at p
    · rw [if_neg (fun h => h0 ((first0_iff t).1 h)), if_neg h0]
  · refine (min_tile (iblk0 V c 0 t) (iblk0 V c 1 t) (iblk0 V c 2 t) (iblk0 V c 3 t) p (grid0.coords t)).trans ?_
    refine Finset.inf_congr rfl fun q _ => ?_
    rw [blk2_read, blk3_read]
    refine if_congr ?_ ?_ rfl
    · have hv : (rowOf (pt0 t) p = colOf (pt0 t) q)
          ↔ 1024 * (grid0.coords t 0).val + p.val = 256 * (grid0.coords t 1).val + q.val := by
        rw [Fin.ext_iff, g0, g1]; rfl
      unfold Cert.Spec.pos
      rw [Bool.and_eq_true, Bool.not_eq_true', decide_eq_false_iff_not, decide_eq_true_iff, hv]
    · unfold Cert.Spec.sim
      exact Finset.sum_congr rfl fun k _ => by rw [blk0_read, blk1_read]

-- Likewise the running maximum (-inf at a first tile) against the greatest similarity among the row's negatives inside the tile.
theorem tile_max (c : Dev nD) (t : Fin cfg0.N) (p : Fin 1024) (s : Vec Ideal S1024x1 .f32) :
    newMax0 (grid0.coords t) (iblk0 V c 0 t) (iblk0 V c 1 t) (iblk0 V c 2 t) (iblk0 V c 3 t) s (ix2 p (0 : Fin 1))
      = max (if t.val % 32 = 0 then ⊥ else s (ix2 p (0 : Fin 1)))
          (Finset.univ.sup fun q : Fin 256 =>
            if Cert.Spec.neg (rowLab V c) (colLab V c) (rowOf (pt0 t) p) (colOf (pt0 t) q)
            then Cert.Spec.sim (embOf V c) (rowOf (pt0 t) p) (colOf (pt0 t) q) else ⊥) := by
  unfold newMax0 k0_pay2
  rw [shapeCast_self, maximumf_apply]
  refine congrArg₂ max ?_ ?_
  · by_cases h0 : t.val % 32 = 0
    · rw [if_pos ((first0_iff t).2 h0), if_pos h0]; exact pay4_at p
    · rw [if_neg (fun h => h0 ((first0_iff t).1 h)), if_neg h0]
  · refine (max_tile (iblk0 V c 0 t) (iblk0 V c 1 t) (iblk0 V c 2 t) (iblk0 V c 3 t) p).trans ?_
    refine Finset.sup_congr rfl fun q _ => ?_
    rw [blk2_read, blk3_read]
    refine if_congr ?_ ?_ rfl
    · simp only [Cert.Spec.neg, Bool.not_eq_true', decide_eq_false_iff_not]
    · unfold Cert.Spec.sim
      exact Finset.sum_congr rfl fun k _ => by rw [blk0_read, blk1_read]

def blockInf (f : Fin 8192 → EReal) (j : ℕ) : EReal :=
  Finset.univ.inf fun q : Fin 256 => if h : 256 * j + q.val < 8192 then f ⟨256 * j + q.val, h⟩ else ⊤

def blockSup (f : Fin 8192 → EReal) (j : ℕ) : EReal :=
  Finset.univ.sup fun q : Fin 256 => if h : 256 * j + q.val < 8192 then f ⟨256 * j + q.val, h⟩ else ⊥

-- The 32 column tiles partition the 8192 columns: the infimum of the tiles' infima is the infimum.
theorem inf_blocks (f : Fin 8192 → EReal) : (Finset.range 32).inf (blockInf f) = Finset.univ.inf f := by
  refine le_antisymm (Finset.le_inf fun c _ => ?_) (Finset.le_inf fun j _ => Finset.le_inf fun q _ => ?_)
  · have hc := c.isLt
    refine (Finset.inf_le (Finset.mem_range.2 (show c.val / 256 < 32 by omega))).trans ?_
    refine (Finset.inf_le (Finset.mem_univ (⟨c.val % 256, Nat.mod_lt _ (by omega)⟩ : Fin 256))).trans_eq ?_
    have h : 256 * (c.val / 256) + c.val % 256 < 8192 := by omega
    rw [dif_pos h]
    exact congrArg f (Fin.ext (by show 256 * (c.val / 256) + c.val % 256 = c.val; omega))
  · split
    · exact Finset.inf_le (Finset.mem_univ _)
    · exact le_top

theorem sup_blocks (f : Fin 8192 → EReal) : (Finset.range 32).sup (blockSup f) = Finset.univ.sup f := by
  refine le_antisymm (Finset.sup_le fun j _ => Finset.sup_le fun q _ => ?_) (Finset.sup_le fun c _ => ?_)
  · split
    · exact Finset.le_sup (Finset.mem_univ _)
    · exact bot_le
  · have hc := c.isLt
    refine le_trans ?_ (Finset.le_sup (Finset.mem_range.2 (show c.val / 256 < 32 by omega)))
    refine le_trans (le_of_eq ?_) (Finset.le_sup (Finset.mem_univ (⟨c.val % 256, Nat.mod_lt _ (by omega)⟩ : Fin 256)))
    have h : 256 * (c.val / 256) + c.val % 256 < 8192 := by omega
    rw [dif_pos h]
    exact congrArg f (Fin.ext (by show c.val = 256 * (c.val / 256) + c.val % 256; omega))

def posTerm (c : Dev nD) (r c' : Fin 8192) : EReal :=
  if Cert.Spec.pos (rowLab V c) (colLab V c) r c' then Cert.Spec.sim (embOf V c) r c' else ⊤

def negTerm (c : Dev nD) (r c' : Fin 8192) : EReal :=
  if Cert.Spec.neg (rowLab V c) (colLab V c) r c' then Cert.Spec.sim (embOf V c) r c' else ⊥

-- Column tile j of row tile i is point 32 i + j of the grid.
def pnt (i j : ℕ) (hi : i < 8) (hj : j < 32) : Fin cfg0.N := ⟨32 * i + j, by rw [show cfg0.N = 256 from N_0]; omega⟩

section At
variable (c : Dev nD) (i j : ℕ) (hi : i < 8) (hj : j < 32) (p : Fin 1024) (s : Vec Ideal S1024x1 .f32)

theorem row_at : rowOf (pt0 (pnt i j hi hj)) p = ⟨1024 * i + p.val, by have := p.isLt; omega⟩ :=
  Fin.ext (by show 1024 * ((32 * i + j) / 32) + p.val = 1024 * i + p.val; omega)

theorem col_at (q : Fin 256) (hq : 256 * j + q.val < 8192) : colOf (pt0 (pnt i j hi hj)) q = ⟨256 * j + q.val, hq⟩ :=
  Fin.ext (by show 256 * ((32 * i + j) % 32) + q.val = 256 * j + q.val; omega)

-- The tile at point 32 i + j contributes the infimum over column tile j of row 1024 i + p's entries.
theorem tile_min_at :
    newMin0 (grid0.coords (pnt i j hi hj)) (iblk0 V c 0 (pnt i j hi hj)) (iblk0 V c 1 (pnt i j hi hj)) (iblk0 V c 2 (pnt i j hi hj))
        (iblk0 V c 3 (pnt i j hi hj)) s (ix2 p (0 : Fin 1))
      = min (if j = 0 then ⊤ else s (ix2 p (0 : Fin 1)))
          (blockInf (posTerm V c ⟨1024 * i + p.val, by have := p.isLt; omega⟩) j) := by
  refine (tile_min V c (pnt i j hi hj) p s).trans ?_
  refine congrArg₂ min (if_congr (by show (32 * i + j) % 32 = 0 ↔ j = 0; omega) rfl rfl) (Finset.inf_congr rfl fun q _ => ?_)
  have hq : 256 * j + q.val < 8192 := by have := q.isLt; omega
  rw [dif_pos hq, row_at, col_at i j hi hj q hq]
  rfl

theorem tile_max_at :
    newMax0 (grid0.coords (pnt i j hi hj)) (iblk0 V c 0 (pnt i j hi hj)) (iblk0 V c 1 (pnt i j hi hj)) (iblk0 V c 2 (pnt i j hi hj))
        (iblk0 V c 3 (pnt i j hi hj)) s (ix2 p (0 : Fin 1))
      = max (if j = 0 then ⊥ else s (ix2 p (0 : Fin 1)))
          (blockSup (negTerm V c ⟨1024 * i + p.val, by have := p.isLt; omega⟩) j) := by
  refine (tile_max V c (pnt i j hi hj) p s).trans ?_
  refine congrArg₂ max (if_congr (by show (32 * i + j) % 32 = 0 ↔ j = 0; omega) rfl rfl) (Finset.sup_congr rfl fun q _ => ?_)
  have hq : 256 * j + q.val < 8192 := by have := q.isLt; omega
  rw [dif_pos hq, row_at, col_at i j hi hj q hq]
  rfl
end At

-- After column tiles 0 … j of row tile i the running columns hold, at row p, the infimum (supremum) of row 1024 i + p's entries over those tiles.
theorem fold_cols (c : Dev nD) (i : ℕ) (hi : i < 8) (p : Fin 1024) : ∀ (j : ℕ), j < 32 →
    (sc0 V c (32 * i + j + 1)).1 (ix2 p (0 : Fin 1))
        = (Finset.range (j + 1)).inf (blockInf (posTerm V c ⟨1024 * i + p.val, by have := p.isLt; omega⟩))
      ∧ (sc0 V c (32 * i + j + 1)).2 (ix2 p (0 : Fin 1))
        = (Finset.range (j + 1)).sup (blockSup (negTerm V c ⟨1024 * i + p.val, by have := p.isLt; omega⟩))
  | 0, hj => by
    rw [show 32 * i + 0 + 1 = (pnt i 0 hi hj).val + 1 from rfl, sc0_succ]
    refine ⟨(tile_min_at V c i 0 hi hj p _).trans ?_, (tile_max_at V c i 0 hi hj p _).trans ?_⟩
    · rw [if_pos rfl, Finset.range_one, Finset.inf_singleton]; exact min_top_left _
    · rw [if_pos rfl, Finset.range_one, Finset.sup_singleton]; exact max_bot_left _
  | j + 1, hj => by
    obtain ⟨ih1, ih2⟩ := fold_cols c i hi p j (by omega)
    rw [show 32 * i + (j + 1) + 1 = (pnt i (j + 1) hi hj).val + 1 from rfl, sc0_succ]
    refine ⟨(tile_min_at V c i (j + 1) hi hj p _).trans ?_, (tile_max_at V c i (j + 1) hi hj p _).trans ?_⟩
    · rw [if_neg (Nat.succ_ne_zero j), show (pnt i (j + 1) hi hj).val = 32 * i + j + 1 from rfl,
        ih1, Finset.range_add_one (n := j + 1), Finset.inf_insert]
      exact min_comm _ _
    · rw [if_neg (Nat.succ_ne_zero j), show (pnt i (j + 1) hi hj).val = 32 * i + j + 1 from rfl,
        ih2, Finset.range_add_one (n := j + 1), Finset.sup_insert]
      exact max_comm _ _

def minArr (c : Dev nD) : Vec Ideal S8192x1 .f32 :=
  fun i => Cert.Spec.posMin (embOf V c) (rowLab V c) (colLab V c) ⟨(i 0).val, idx2_lt0 i⟩

def maxArr (c : Dev nD) : Vec Ideal S8192x1 .f32 :=
  fun i => Cert.Spec.negMax (embOf V c) (rowLab V c) (colLab V c) ⟨(i 0).val, idx2_lt0 i⟩

-- After the last column tile of a row of tiles the running columns hold the rows' values over all columns.
theorem cols_last (c : Dev nD) (t : Fin cfg0.N) (hl : t.val % 32 = 31) (p : Fin 1024) :
    (sc0 V c (t.val + 1)).1 (ix2 p (0 : Fin 1))
        = Cert.Spec.posMin (embOf V c) (rowLab V c) (colLab V c) (rowOf (pt0 t) p)
      ∧ (sc0 V c (t.val + 1)).2 (ix2 p (0 : Fin 1))
        = Cert.Spec.negMax (embOf V c) (rowLab V c) (colLab V c) (rowOf (pt0 t) p) := by
  have hN : t.val < 256 := (pt0 t).isLt
  have ht : t.val + 1 = 32 * (t.val / 32) + 31 + 1 := by omega
  obtain ⟨h1, h2⟩ := fold_cols V c (t.val / 32) (by omega) p 31 (by omega)
  rw [ht, h1, h2, inf_blocks, sup_blocks]
  exact ⟨rfl, rfl⟩

-- A function on a one-column block is determined by its values down the column.
theorem col_ext {α : Type} {f g : S1024x1.Idx → α} (h : ∀ p : Fin 1024, f (ix2 p (0 : Fin 1)) = g (ix2 p (0 : Fin 1))) : f = g :=
  funext fun y => by
    obtain ⟨p, u, rfl⟩ : ∃ (p : Fin 1024) (u : Fin 1), y = ix2 p u := ⟨y 0, y 1, eq_ix2 y⟩
    obtain rfl : u = 0 := Subsingleton.elim _ _
    exact h p

theorem flushed4_eq (c : Dev nD) (t : Fin cfg0.N) (hf : (cfg0.win 4).flush t = true) :
    (dat0 V c).flushed 4 t = ((cfg0.win 4).blk t).view.read (Elt Ideal) (minArr V c) := by
  obtain ⟨-, -, -, -, -, -, -, -, -, -, e0, e1, -⟩ := pt_facts t
  show (cfg0.win 4).cut (grid0.coords t) ((dat0 V c).after 4 t) = _
  rw [after0_4]
  refine col_ext fun p => ?_
  show (sc0 V c (t.val + 1)).1 (ix2 p (0 : Fin 1)) = minArr V c (((cfg0.win 4).blk t).view.emb (ix2 p (0 : Fin 1)))
  rw [(cols_last V c t ((flush0_4 t).1 hf) p).1]
  refine congrArg (Cert.Spec.posMin (embOf V c) (rowLab V c) (colLab V c)) (Fin.ext ?_)
  show 1024 * (t.val / 32) + p.val = win0_4.index t (0 : Fin 2) * 1024 + 1 * p.val
  omega

theorem flushed5_eq (c : Dev nD) (t : Fin cfg0.N) (hf : (cfg0.win 5).flush t = true) :
    (dat0 V c).flushed 5 t = ((cfg0.win 5).blk t).view.read (Elt Ideal) (maxArr V c) := by
  obtain ⟨-, -, -, -, -, -, -, -, -, -, -, -, e0, e1⟩ := pt_facts t
  show (cfg0.win 5).cut (grid0.coords t) ((dat0 V c).after 5 t) = _
  rw [after0_5]
  refine col_ext fun p => ?_
  show (sc0 V c (t.val + 1)).2 (ix2 p (0 : Fin 1)) = maxArr V c (((cfg0.win 5).blk t).view.emb (ix2 p (0 : Fin 1)))
  rw [(cols_last V c t ((flush0_5 t).1 hf) p).2]
  refine congrArg (Cert.Spec.negMax (embOf V c) (rowLab V c) (colLab V c)) (Fin.ext ?_)
  show 1024 * (t.val / 32) + p.val = win0_5.index t (0 : Fin 2) * 1024 + 1 * p.val
  omega

-- Row r lies in row tile r / 1024, whose last column tile is point 32 (r / 1024) + 31.
theorem last_pt (i : S8192x1.Idx) : ∃ t : Fin cfg0.N, t.val % 32 = 31 ∧ t.val / 32 * 1024 ≤ (i 0).val ∧ (i 0).val < t.val / 32 * 1024 + 1024 := by
  have h0 : (i 0).val < 8192 := idx2_lt0 i
  exact ⟨pnt ((i 0).val / 1024) 31 (by omega) (by omega), by show (32 * ((i 0).val / 1024) + 31) % 32 = 31; omega,
    by show (32 * ((i 0).val / 1024) + 31) / 32 * 1024 ≤ _; omega, by show _ < (32 * ((i 0).val / 1024) + 31) / 32 * 1024 + 1024; omega⟩

theorem cover4 (i : S8192x1.Idx) : ∃ t : Fin cfg0.N, (cfg0.win 4).flush t = true ∧ i ∈ ((cfg0.win 4).blk t).view.set := by
  obtain ⟨t, hl, h0, h0'⟩ := last_pt i
  have h1 : (i 1).val < 1 := idx2_lt1 i
  obtain ⟨-, -, -, -, -, -, -, -, -, -, e0, e1, -⟩ := pt_facts t
  refine ⟨t, (flush0_4 t).2 hl, ?_⟩
  show i ∈ ((View.whole main_v2_0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

theorem cover5 (i : S8192x1.Idx) : ∃ t : Fin cfg0.N, (cfg0.win 5).flush t = true ∧ i ∈ ((cfg0.win 5).blk t).view.set := by
  obtain ⟨t, hf, hm⟩ := cover4 i
  exact ⟨t, (flush0_5 t).2 ((flush0_4 t).1 hf), hm⟩

end Pass1

open Pass1

variable (V : (c : Dev nD) → (b : Ref sig .tc) → Buf (Elt Ideal) ((c : Thread nD τ).loc b))

theorem posmin_arr (c : Dev nD) (r : Fin 8192) :
    ((dat0 V c).arrAt 4 cfg0.N : Vec Ideal S8192x1 .f32) (ix2 r (0 : Fin 1))
      = Cert.Spec.posMin (embOf V c) (rowLab V c) (colLab V c) r := by
  rw [(dat0 V c).arrAt_eq_of_cover 4 (minArr V c) (fun t hf => flushed4_eq V c t hf) cover4]
  rfl

theorem negmax_arr (c : Dev nD) (r : Fin 8192) :
    ((dat0 V c).arrAt 5 cfg0.N : Vec Ideal S8192x1 .f32) (ix2 r (0 : Fin 1))
      = Cert.Spec.negMax (embOf V c) (rowLab V c) (colLab V c) r := by
  rw [(dat0 V c).arrAt_eq_of_cover 5 (maxArr V c) (fun t hf => flushed5_eq V c t hf) cover5]
  rfl

end Cert.KernelIdeal.Hand

end
-- ==== Proof.Val1Base.lean ====
import proofs.«144984_j9225589752058_1_alg».proof.Proof.Dat1
import proofs.«144984_j9225589752058_1_alg».proof.Proof.Arrays
import proofs.«144984_j9225589752058_1_alg».proof.Proof.Tiles

noncomputable section

namespace Cert.KernelIdeal.Hand

open Cert.KernelIdeal Cert.KernelIdeal.Gen
open Idealize.ShloMosaic Idealize.ShloMosaic.TcCoe Idealize.ShloMosaic.ValueIdx Idealize.SL.Sem
open scoped Classical

-- Point t is column tile t mod 32 of row tile t / 32.
theorem pt1_facts : ∀ t : Fin cfg1.N, (grid1.coords t 0).val = t.val / 32 ∧ (grid1.coords t 1).val = t.val % 32
    ∧ (win1_0.index t (0 : Fin 2) = t.val / 32 ∧ win1_0.index t (1 : Fin 2) = 0)
    ∧ (win1_1.index t (0 : Fin 2) = t.val % 32 ∧ win1_1.index t (1 : Fin 2) = 0)
    ∧ (win1_2.index t (0 : Fin 2) = t.val / 32 ∧ win1_2.index t (1 : Fin 2) = 0)
    ∧ (win1_3.index t (0 : Fin 2) = 0 ∧ win1_3.index t (1 : Fin 2) = t.val % 32)
    ∧ (win1_4.index t (0 : Fin 2) = t.val / 32 ∧ win1_4.index t (1 : Fin 2) = 0)
    ∧ win1_5.index t (0 : Fin 2) = t.val / 32 ∧ win1_5.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)
  (p : Fin 1024) (q : Fin 256) (k : Fin 128)

theorem blk1_emb_row : (iblk1 V c 0 t : Vec Ideal S1024x128 .f32) (ix2 p k) = embOf V c (rowOf (pt1 t) p) k := by
  obtain ⟨-, -, ⟨e0, e1⟩, -⟩ := pt1_facts t
  exact congrArg (V c main_arg0 : Vec Ideal S8192x128 .f32) (ix2_ext (by show win1_0.index t (0 : Fin 2) * 1024 + 1 * p.val = 1024 * (t.val / 32) + p.val; omega)
    (by show win1_0.index t (1 : Fin 2) * 128 + 1 * k.val = k.val; omega))
theorem blk1_emb_col : (iblk1 V c 1 t : Vec Ideal S256x128 .f32) (ix2 q k) = embOf V c (colOf (pt1 t) q) k := by
  obtain ⟨-, -, -, ⟨e0, e1⟩, -⟩ := pt1_facts t
  exact congrArg (V c main_arg0 : Vec Ideal S8192x128 .f32) (ix2_ext (by show win1_1.index t (0 : Fin 2) * 256 + 1 * q.val = 256 * (t.val % 32) + q.val; omega)
    (by show win1_1.index t (1 : Fin 2) * 128 + 1 * k.val = k.val; omega))
theorem blk1_lrow : (iblk1 V c 2 t : Vec Ideal S1024x1 .i32) (ix2 p (0 : Fin 1)) = rowLab V c (rowOf (pt1 t) p) := by
  obtain ⟨-, -, -, -, ⟨e0, e1⟩, -⟩ := pt1_facts t
  exact congrArg (V c main_v0 : Vec Ideal S8192x1 .i32) (ix2_ext (by show win1_2.index t (0 : Fin 2) * 1024 + 1 * p.val = 1024 * (t.val / 32) + p.val; omega)
    (by show win1_2.index t (1 : Fin 2) * 1 + 1 * 0 = 0; omega))
theorem blk1_lcol : (iblk1 V c 3 t : Vec Ideal S1x256 .i32) (ix2 (0 : Fin 1) q) = colLab V c (colOf (pt1 t) q) := by
  obtain ⟨-, -, -, -, -, ⟨e0, e1⟩, -⟩ := pt1_facts t
  exact congrArg (V c main_v1 : Vec Ideal S1x8192 .i32) (ix2_ext (by show win1_3.index t (0 : Fin 2) * 1 + 1 * 0 = 0; omega)
    (by show win1_3.index t (1 : Fin 2) * 256 + 1 * q.val = 256 * (t.val % 32) + q.val; omega))
theorem blk1_pm : (iblk1 V c 4 t : Vec Ideal S1024x1 .f32) (ix2 p (0 : Fin 1)) = pmOf V c (rowOf (pt1 t) p) := by
  obtain ⟨-, -, -, -, -, -, ⟨e0, e1⟩, -⟩ := pt1_facts t
  exact congrArg (V c main_v2_0 : Vec Ideal S8192x1 .f32) (ix2_ext (by show win1_4.index t (0 : Fin 2) * 1024 + 1 * p.val = 1024 * (t.val / 32) + p.val; omega)
    (by show win1_4.index t (1 : Fin 2) * 1 + 1 * 0 = 0; omega))
theorem blk1_nm : (iblk1 V c 5 t : Vec Ideal S1024x1 .f32) (ix2 p (0 : Fin 1)) = nmOf V c (rowOf (pt1 t) p) := by
  obtain ⟨-, -, -, -, -, -, -, e0, e1⟩ := pt1_facts t
  exact congrArg (V c main_v2_1 : Vec Ideal S8192x1 .f32) (ix2_ext (by show win1_5.index t (0 : Fin 2) * 1024 + 1 * p.val = 1024 * (t.val / 32) + p.val; omega)
    (by show win1_5.index t (1 : Fin 2) * 1 + 1 * 0 = 0; omega))
end Blocks

theorem cmpi_eq_ite (a b : BitVec 32) : IntOp.cmpi .eq a b = if a = b then (1#1 : BitVec 1) else 0#1 := by
  unfold IntOp.cmpi
  by_cases h : a = b
  · rw [if_pos h, show (a == b) = true from beq_iff_eq.mpr h]; rfl
  · rw [if_neg h, show (a == b) = false from beq_eq_false_iff_ne.mpr h]; rfl

theorem pos_bit (P Q : Prop) [Decidable P] [Decidable Q] :
    IntOp.andi (if P then 1#1 else 0#1 : BitVec 1) (IntOp.xori (if Q then 1#1 else 0#1) 1#1) = if P ∧ ¬ Q then 1#1 else 0#1 := by
  by_cases hP : P <;> by_cases hQ : Q <;> simp only [hP, hQ, if_true, if_false, and_self, and_false, false_and, not_true_eq_false, not_false_eq_true] <;> rfl

section Payloads
variable (x2 : Vec Ideal S1024x1 .i32) (x3 : Vec Ideal S1x256 .i32) (p : Fin 1024) (q : Fin 256)

theorem pay11_at :
    k1_pay11 (F := Ideal) x2 x3 (ix2 p q) = if x2 (ix2 p (0 : Fin 1)) = x3 (ix2 (0 : Fin 1) q) then (1#1 : BitVec 1) else 0#1 :=
  (agree_tile x2 x3 p q).trans (cmpi_eq_ite _ _)

-- The positive mask: labels agree, and matrix row 1024 i₀ + p is not matrix column 256 i₁ + q.
theorem pay1_pos (i : grid1.Coords) :
    k1_pay12 (F := Ideal) i x2 x3 (ix2 p q)
      = if x2 (ix2 p (0 : Fin 1)) = x3 (ix2 (0 : Fin 1) q) ∧ 1024 * (i 0).val + p.val ≠ 256 * (i 1).val + q.val then (1#1 : BitVec 1) else 0#1 := by
  unfold k1_pay12
  dsimp only
  rw [andi_at, xori_at, cmpi_at, constantI_apply, pay11_at, bcast_col, broadcastTo_1b_ab_apply, addi_at, addi_at, broadcast_apply, broadcast_apply,
    iota_single_apply, iota_single_apply, cmpi_eq_ite, pos_bit]
  exact if_congr (and_congr Iff.rfl (not_congr (word_eq_iff _ _ _ _ (i 0).isLt (i 1).isLt p.isLt q.isLt))) rfl rfl

theorem pay1_neg :
    k1_pay13 (F := Ideal) x2 x3 (ix2 p q) = if x2 (ix2 p (0 : Fin 1)) = x3 (ix2 (0 : Fin 1) q) then (0#1 : BitVec 1) else 1#1 := by
  unfold k1_pay13
  rw [xori_at, constantI_apply, pay11_at]
  by_cases h : x2 (ix2 p (0 : Fin 1)) = x3 (ix2 (0 : Fin 1) q)
  · rw [if_pos h, if_pos h]; rfl
  · rw [if_neg h, if_neg h]; rfl
end Payloads

end Cert.KernelIdeal.Hand

end
-- ==== Proof.Val1Tile.lean ====
import proofs.«144984_j9225589752058_1_alg».proof.Proof.Spec
import proofs.«144984_j9225589752058_1_alg».proof.Proof.Val1Base

noncomputable section

namespace Cert.KernelIdeal.Hand

open Cert.KernelIdeal Cert.KernelIdeal.Gen
open Idealize.ShloMosaic Idealize.ShloMosaic.TcCoe Idealize.ShloMosaic.ValueIdx Idealize.SL.Sem
open scoped Classical

namespace Tile1

section Bits
theorem ofBool_decide (P : Prop) [Decidable P] : BitVec.ofBool (decide P) = if P then 1#1 else 0#1 := by
  by_cases h : P <;> simp [h]

theorem cmp_olt (x y : EReal) : Ideal.cmp .olt x y = if x < y then 1#1 else 0#1 := by
  unfold Ideal.cmp; exact ofBool_decide _
theorem cmp_ogt (x y : EReal) : Ideal.cmp .ogt x y = if y < x then 1#1 else 0#1 := by
  unfold Ideal.cmp; exact ofBool_decide _
theorem cmp_one (x y : EReal) : Ideal.cmp .one x y = if x ≠ y then 1#1 else 0#1 := by
  unfold Ideal.cmp; exact ofBool_decide _

theorem andi_bit (P Q : Prop) [Decidable P] [Decidable Q] :
    IntOp.andi (if P then 1#1 else 0#1 : BitVec 1) (if Q then 1#1 else 0#1) = if P ∧ Q then 1#1 else 0#1 := by
  unfold IntOp.andi
  by_cases hP : P <;> by_cases hQ : Q <;> simp [hP, hQ]

theorem sel_bit {α : Type} (P : Prop) [Decidable P] (a b : α) :
    Scalar.select (if P then 1#1 else 0#1 : BitVec 1) a b = if P then a else b := by
  unfold Scalar.select
  by_cases hP : P <;> simp [hP]
end Bits

section Payloads
variable (v8 v35 v36 e : FVec Ideal S1024x256 .f32) (v28 v29 m : IVec S1024x256 1) (x4 x5 s : FVec Ideal S1024x1 .f32)
  (p : Fin 1024) (q : Fin 256)

theorem pay14_apply : k1_pay14 (F := Ideal) x4 (ix2 p (0 : Fin 1)) = x4 (ix2 p (0 : Fin 1)) := by
  unfold k1_pay14; rw [shapeCast_self]
theorem pay15_apply : k1_pay15 (F := Ideal) x5 (ix2 p (0 : Fin 1)) = x5 (ix2 p (0 : Fin 1)) := by
  unfold k1_pay15; rw [shapeCast_self]
theorem pay17_apply : k1_pay17 (F := Ideal) x4 (ix2 p q) = x4 (ix2 p (0 : Fin 1)) := by
  unfold k1_pay17
  exact (bcast_col _ _ p q).trans (pay14_apply x4 p)

theorem pay20_apply : k1_pay20 (F := Ideal) v8 (ix2 p q)
    = Ideal.exp (Cert.Spec.lit 0xC0000000#32 * (v8 (ix2 p q) - Cert.Spec.lit 0x3F000000#32)) := rfl
theorem pay21_apply : k1_pay21 (F := Ideal) v8 (ix2 p q)
    = Ideal.exp (Cert.Spec.lit 0x42480000#32 * (v8 (ix2 p q) - Cert.Spec.lit 0x3F000000#32)) := rfl

theorem pay19_apply : k1_pay19 (F := Ideal) v8 v28 x5 (ix2 p q)
    = IntOp.andi (v28 (ix2 p q)) (if v8 (ix2 p q) - Cert.Spec.lit 0x3DCCCCCD#32 < x5 (ix2 p (0 : Fin 1)) then 1#1 else 0#1) := by
  unfold k1_pay19
  show IntOp.andi (v28 (ix2 p q)) (Ideal.cmp .olt (v8 (ix2 p q) - Cert.Spec.lit 0x3DCCCCCD#32) (broadcastTo S1024x256 x5 _ (ix2 p q))) = _
  rw [bcast_col, cmp_olt]

theorem pay18_apply : k1_pay18 (F := Ideal) v29 v35 v36 (ix2 p q)
    = IntOp.andi (v29 (ix2 p q)) (if v36 (ix2 p q) < v35 (ix2 p q) then 1#1 else 0#1) := by
  unfold k1_pay18
  show IntOp.andi (v29 (ix2 p q)) (Ideal.cmp .ogt (v35 (ix2 p q)) (v36 (ix2 p q))) = _
  rw [cmp_ogt]

theorem pay16_apply (x0 : Vec Ideal S1024x128 .f32) (x1 : Vec Ideal S256x128 .f32) :
    k1_pay16 (F := Ideal) x0 x1 (ix2 p q) = k1_pay10 (F := Ideal) x0 x1 (ix2 p q) + Cert.Spec.lit 0x3DCCCCCD#32 := rfl

-- A masked lane sum from zero, read at a row, is the sum of the row's selected entries.
theorem rowsum_apply :
    (shapeCast S1024x1 (multiReduction (F := Ideal) .add [1] S1024
        (select m e (broadcast S1024x256 (Scalar.ofBits (F := Ideal) .f32 0x00000000#32))) 0x00000000#32 reduces_S1024x256_S1024 (.inl rfl) rfl) shapeCasts_S1024_S1024x1
      : FVec Ideal S1024x1 .f32) (ix2 p (0 : Fin 1))
      = ∑ q : Fin 256, Scalar.select (m (ix2 p q)) (e (ix2 p q)) 0 := by
  rw [cast_col]
  refine (Ideal.multiReduction_add_single _ 0x00000000#32 reduces_S1024x256_S1024 _ _ (ix1 p)).trans ?_
  show (∑ q : Fin 256, select m e (broadcast S1024x256 (Scalar.ofBits (F := Ideal) .f32 0x00000000#32)) (reduces_S1024x256_S1024.lift (ix1 p) q)) = _
  refine Finset.sum_congr rfl fun q _ => ?_
  rw [lift_lane, select_apply, broadcast_apply]
  show Scalar.select _ _ (Ideal.ofBits .f32 0x00000000#32) = _
  rw [Ideal.ofBits_zero_f32]

theorem pay22_apply : k1_pay22 (F := Ideal) v8 v28 x5 s (ix2 p (0 : Fin 1))
    = s (ix2 p (0 : Fin 1)) + ∑ q : Fin 256, Scalar.select (k1_pay19 (F := Ideal) v8 v28 x5 (ix2 p q)) (k1_pay20 (F := Ideal) v8 (ix2 p q)) 0 := by
  unfold k1_pay22
  rw [shapeCast_self, addf_apply, rowsum_apply]

theorem pay23_apply : k1_pay23 (F := Ideal) v8 v28 s (ix2 p (0 : Fin 1))
    = s (ix2 p (0 : Fin 1)) + ∑ q : Fin 256, Scalar.select (v28 (ix2 p q)) (k1_pay20 (F := Ideal) v8 (ix2 p q)) 0 := by
  unfold k1_pay23
  rw [shapeCast_self, addf_apply, rowsum_apply]

theorem pay25_apply : k1_pay25 (F := Ideal) s (k1_pay24 (F := Ideal) v8 v29 v35 v36) (ix2 p (0 : Fin 1))
    = s (ix2 p (0 : Fin 1)) + ∑ q : Fin 256, Scalar.select (k1_pay18 (F := Ideal) v29 v35 v36 (ix2 p q)) (k1_pay21 (F := Ideal) v8 (ix2 p q)) 0 := by
  unfold k1_pay25 k1_pay24
  rw [shapeCast_self, addf_apply, rowsum_apply]

theorem pay26_apply : k1_pay26 (F := Ideal) v29 e s (ix2 p (0 : Fin 1))
    = s (ix2 p (0 : Fin 1)) + ∑ q : Fin 256, Scalar.select (v29 (ix2 p q)) (e (ix2 p q)) 0 := by
  unfold k1_pay26
  rw [shapeCast_self, addf_apply, rowsum_apply]

-- The lane maximum of a mask read as 0/1 values, folded into a running column (both flag columns are this).
theorem pay27_apply : k1_pay27 (F := Ideal) m s (ix2 p (0 : Fin 1))
    = max (s (ix2 p (0 : Fin 1))) (Finset.univ.sup fun q : Fin 256 => FloatOps.sitofp (F := Ideal) .f32 ((m (ix2 p q)).setWidth 32)) := by
  unfold k1_pay27
  rw [shapeCast_self, maximumf_apply, cast_col]
  exact congrArg _ (lane_max _ _ p _)
end Payloads

section Flags
-- The largest of finitely many 0/1 values is 1 exactly when one of them is 1.
theorem sup_indicator {ι : Type} [Fintype ι] [Nonempty ι] (P : ι → Prop) [DecidablePred P] [Decidable (∃ i, P i)] :
    (Finset.univ.sup fun i => if P i then (1 : EReal) else 0) = if ∃ i, P i then (1 : EReal) else 0 := by
  by_cases h : ∃ i, P i
  · rw [if_pos h]
    obtain ⟨i, hi⟩ := h
    refine le_antisymm (Finset.sup_le fun j _ => ?_) ?_
    · split
      · exact le_refl _
      · exact zero_le_one
    · have := Finset.le_sup (f := fun i => if P i then (1 : EReal) else 0) (Finset.mem_univ i)
      simpa [hi] using this
  · rw [if_neg h]
    have h0 : ∀ i, (if P i then (1 : EReal) else 0) = 0 := fun i => if_neg fun hi => h ⟨i, hi⟩
    simp only [h0]
    exact Finset.sup_const Finset.univ_nonempty 0

theorem sitofp_bit (P : Prop) [Decidable P] :
    FloatOps.sitofp (F := Ideal) .f32 ((if P then 1#1 else 0#1 : BitVec 1).setWidth 32) = if P then (1 : EReal) else 0 := by
  show (((BitVec.toInt ((if P then 1#1 else 0#1 : BitVec 1).setWidth 32) : ℤ) : ℝ) : EReal) = _
  by_cases h : P <;> simp [h]
end Flags

section Tile
variable (V : (c : Dev nD) → (b : Ref sig .tc) → Buf (Elt Ideal) ((c : Thread nD τ).loc b)) (c : Dev nD) (t : Fin cfg1.N) (p : Fin 1024) (q : Fin 256)

theorem tile_sim :
    k1_pay10 (F := Ideal) (iblk1 V c 0 t) (iblk1 V c 1 t) (ix2 p q)
      = Cert.Spec.sim (embOf V c) (rowOf (pt1 t) p) (colOf (pt1 t) q) := by
  refine (sim_tile (iblk1 V c 0 t) (iblk1 V c 1 t) p q).trans ?_
  unfold Cert.Spec.sim
  exact Finset.sum_congr rfl fun k _ => by rw [blk1_emb_row, blk1_emb_col]

theorem row_ne_col_iff :
    1024 * (grid1.coords t 0).val + p.val ≠ 256 * (grid1.coords t 1).val + q.val ↔ ¬ rowOf (pt1 t) p = colOf (pt1 t) q := by
  obtain ⟨g0, g1, -⟩ := pt1_facts t
  rw [g0, g1]
  unfold rowOf colOf pt1
  simp only [Fin.mk.injEq, ne_eq]

theorem tile_pos :
    k1_pay12 (F := Ideal) (grid1.coords t) (iblk1 V c 2 t) (iblk1 V c 3 t) (ix2 p q)
      = if Cert.Spec.pos (rowLab V c) (colLab V c) (rowOf (pt1 t) p) (colOf (pt1 t) q) = true then 1#1 else 0#1 := by
  refine (pay1_pos (iblk1 V c 2 t) (iblk1 V c 3 t) p q (grid1.coords t)).trans ?_
  rw [blk1_lrow, blk1_lcol]
  unfold Cert.Spec.pos
  simp only [row_ne_col_iff, Bool.and_eq_true, decide_eq_true_eq, Bool.not_eq_true', decide_eq_false_iff_not]

theorem tile_neg :
    k1_pay13 (F := Ideal) (iblk1 V c 2 t) (iblk1 V c 3 t) (ix2 p q)
      = if Cert.Spec.neg (rowLab V c) (colLab V c) (rowOf (pt1 t) p) (colOf (pt1 t) q) = true then 1#1 else 0#1 := by
  refine (pay1_neg (iblk1 V c 2 t) (iblk1 V c 3 t) p q).trans ?_
  rw [blk1_lrow, blk1_lcol]
  unfold Cert.Spec.neg
  by_cases h : rowLab V c (rowOf (pt1 t) p) = colLab V c (colOf (pt1 t) q) <;> simp [h]

-- The six running columns restart from zero (they are one constant column).
theorem pay4_apply : k1_pay4 (F := Ideal) (ix2 p (0 : Fin 1)) = 0 := by
  unfold k1_pay4; rw [shapeCast_self, broadcast_apply]; exact Ideal.ofBits_zero_f32

theorem old_apply (z s : Vec Ideal S1024x1 .f32) (hz : z (ix2 p (0 : Fin 1)) = 0) :
    (if first1 (grid1.coords t) then z else s) (ix2 p (0 : Fin 1)) = if t.val % 32 = 0 then (0 : EReal) else s (ix2 p (0 : Fin 1)) := by
  by_cases h : t.val % 32 = 0
  · rw [if_pos ((first1_iff t).mpr h), if_pos h, hz]
  · rw [if_neg (fun hf => h ((first1_iff t).mp hf)), if_neg h]

theorem tile_posHard_bit :
    k1_pay19 (F := Ideal) (k1_pay10 (F := Ideal) (iblk1 V c 0 t) (iblk1 V c 1 t)) (k1_pay12 (F := Ideal) (grid1.coords t) (iblk1 V c 2 t) (iblk1 V c 3 t))
        (k1_pay15 (F := Ideal) (iblk1 V c 5 t)) (ix2 p q)
      = if Cert.Spec.posHard (embOf V c) (rowLab V c) (colLab V c) (nmOf V c) (rowOf (pt1 t) p) (colOf (pt1 t) q) = true then 1#1 else 0#1 := by
  rw [pay19_apply, tile_pos, tile_sim, pay15_apply, andi_bit, blk1_nm]
  unfold Cert.Spec.posHard
  simp only [Bool.and_eq_true, decide_eq_true_eq]

theorem tile_negHard_bit :
    k1_pay18 (F := Ideal) (k1_pay13 (F := Ideal) (iblk1 V c 2 t) (iblk1 V c 3 t)) (k1_pay16 (F := Ideal) (iblk1 V c 0 t) (iblk1 V c 1 t))
        (k1_pay17 (F := Ideal) (iblk1 V c 4 t)) (ix2 p q)
      = if Cert.Spec.negHard (embOf V c) (rowLab V c) (colLab V c) (pmOf V c) (rowOf (pt1 t) p) (colOf (pt1 t) q) = true then 1#1 else 0#1 := by
  rw [pay18_apply, tile_neg, pay16_apply, tile_sim, pay17_apply, andi_bit, blk1_pm]
  unfold Cert.Spec.negHard
  simp only [Bool.and_eq_true, decide_eq_true_eq]

theorem valid_iff :
    ((k1_pay14 (F := Ideal) (iblk1 V c 4 t)) (ix2 p (0 : Fin 1)) ≠ ⊤ ∧ (k1_pay15 (F := Ideal) (iblk1 V c 5 t)) (ix2 p (0 : Fin 1)) ≠ ⊥)
      ↔ Cert.Spec.validK (pmOf V c) (nmOf V c) (rowOf (pt1 t) p) = true := by
  rw [pay14_apply, pay15_apply, blk1_pm, blk1_nm]
  unfold Cert.Spec.validK
  simp only [Bool.and_eq_true, decide_eq_true_eq]
end Tile

section Outputs
variable (v31 v33 v111 v114 v115 v117 v120 v121 : FVec Ideal S1024x1 .f32) (p : Fin 1024)

theorem pay1_apply : k1_pay1 (F := Ideal) v31 v33 (ix2 p (0 : Fin 1))
    = if v31 (ix2 p (0 : Fin 1)) ≠ ⊤ ∧ v33 (ix2 p (0 : Fin 1)) ≠ ⊥ then 1#1 else 0#1 := by
  unfold k1_pay1
  show IntOp.andi (Ideal.cmp .one (v31 (ix2 p (0 : Fin 1))) (FloatOps.ofBits (F := Ideal) .f32 0x7F800000#32))
    (Ideal.cmp .one (v33 (ix2 p (0 : Fin 1))) (FloatOps.ofBits (F := Ideal) .f32 0xFF800000#32)) = _
  rw [inf_bits, ninf_bits, cmp_one, cmp_one, andi_bit]

theorem pay3_apply : k1_pay3 (F := Ideal) v31 v33 (ix2 p (0 : Fin 1))
    = if v31 (ix2 p (0 : Fin 1)) ≠ ⊤ ∧ v33 (ix2 p (0 : Fin 1)) ≠ ⊥ then (1 : EReal) else 0 := by
  unfold k1_pay3
  show FloatOps.sitofp (F := Ideal) .f32 ((k1_pay1 (F := Ideal) v31 v33 (ix2 p (0 : Fin 1))).setWidth 32) = _
  rw [pay1_apply, sitofp_bit]

theorem pay2_apply : k1_pay2 (F := Ideal) v31 v33 v111 v114 v115 v117 v120 v121 (ix2 p (0 : Fin 1))
    = if v31 (ix2 p (0 : Fin 1)) ≠ ⊤ ∧ v33 (ix2 p (0 : Fin 1)) ≠ ⊥ then
        Ideal.div (Ideal.log1p (if 0 < v111 (ix2 p (0 : Fin 1)) then v114 (ix2 p (0 : Fin 1)) else v115 (ix2 p (0 : Fin 1)))) (Cert.Spec.lit 0x40000000#32)
        + Ideal.div (Ideal.log1p (if 0 < v117 (ix2 p (0 : Fin 1)) then v120 (ix2 p (0 : Fin 1)) else v121 (ix2 p (0 : Fin 1)))) (Cert.Spec.lit 0x42480000#32)
      else 0 := by
  unfold k1_pay2
  show Scalar.select (k1_pay1 (F := Ideal) v31 v33 (ix2 p (0 : Fin 1)))
      (Ideal.div (Ideal.log1p (Scalar.select (Ideal.cmp .ogt (v111 (ix2 p (0 : Fin 1))) (Ideal.ofBits .f32 0x00000000#32)) (v114 (ix2 p (0 : Fin 1))) (v115 (ix2 p (0 : Fin 1)))))
          (Ideal.ofBits .f32 0x40000000#32)
        + Ideal.div (Ideal.log1p (Scalar.select (Ideal.cmp .ogt (v117 (ix2 p (0 : Fin 1))) (Ideal.ofBits .f32 0x00000000#32)) (v120 (ix2 p (0 : Fin 1))) (v121 (ix2 p (0 : Fin 1)))))
          (Ideal.ofBits .f32 0x42480000#32))
      (Ideal.ofBits .f32 0x00000000#32) = _
  rw [pay1_apply, Ideal.ofBits_zero_f32, cmp_ogt, cmp_ogt, sel_bit, sel_bit, sel_bit]
end Outputs

end Tile1

variable (V : (c : Dev nD) → (b : Ref sig .tc) → Buf (Elt Ideal) ((c : Thread nD τ).loc b)) (c : Dev nD) (t : Fin cfg1.N) (p : Fin 1024)

theorem tile_posHard (s : Vec Ideal S1024x1 .f32) :
    newPosHard (grid1.coords t) (iblk1 V c 0 t) (iblk1 V c 1 t) (iblk1 V c 2 t) (iblk1 V c 3 t) (iblk1 V c 5 t) s (ix2 p (0 : Fin 1))
      = (if t.val % 32 = 0 then (0 : EReal) else s (ix2 p (0 : Fin 1))) + ∑ q : Fin 256, if Cert.Spec.posHard (embOf V c) (rowLab V c) (colLab V c) (nmOf V c) (rowOf (pt1 t) p) (colOf (pt1 t) q) then Cert.Spec.ePos (embOf V c) (rowOf (pt1 t) p) (colOf (pt1 t) q) else 0 := by
  unfold newPosHard
  rw [Tile1.pay22_apply, Tile1.old_apply t p _ s (Tile1.pay4_apply p)]
  refine congrArg _ (Finset.sum_congr rfl fun q _ => ?_)
  rw [Tile1.tile_posHard_bit, Tile1.sel_bit, Tile1.pay20_apply, Tile1.tile_sim]
  rfl

theorem tile_posAll (s : Vec Ideal S1024x1 .f32) :
    newPosAll (grid1.coords t) (iblk1 V c 0 t) (iblk1 V c 1 t) (iblk1 V c 2 t) (iblk1 V c 3 t) s (ix2 p (0 : Fin 1))
      = (if t.val % 32 = 0 then (0 : EReal) else s (ix2 p (0 : Fin 1))) + ∑ q : Fin 256, if Cert.Spec.pos (rowLab V c) (colLab V c) (rowOf (pt1 t) p) (colOf (pt1 t) q) then Cert.Spec.ePos (embOf V c) (rowOf (pt1 t) p) (colOf (pt1 t) q) else 0 := by
  unfold newPosAll
  rw [Tile1.pay23_apply, Tile1.old_apply t p (k1_pay5 (F := Ideal)) s (Tile1.pay4_apply p)]
  refine congrArg _ (Finset.sum_congr rfl fun q _ => ?_)
  rw [Tile1.tile_pos, Tile1.sel_bit, Tile1.pay20_apply, Tile1.tile_sim]
  rfl

theorem tile_negHard (s : Vec Ideal S1024x1 .f32) :
    newNegHard (grid1.coords t) (iblk1 V c 0 t) (iblk1 V c 1 t) (iblk1 V c 2 t) (iblk1 V c 3 t) (iblk1 V c 4 t) s (ix2 p (0 : Fin 1))
      = (if t.val % 32 = 0 then (0 : EReal) else s (ix2 p (0 : Fin 1))) + ∑ q : Fin 256, if Cert.Spec.negHard (embOf V c) (rowLab V c) (colLab V c) (pmOf V c) (rowOf (pt1 t) p) (colOf (pt1 t) q) then Cert.Spec.eNeg (embOf V c) (rowOf (pt1 t) p) (colOf (pt1 t) q) else 0 := by
  unfold newNegHard
  rw [Tile1.pay25_apply, Tile1.old_apply t p (k1_pay7 (F := Ideal)) s (Tile1.pay4_apply p)]
  refine congrArg _ (Finset.sum_congr rfl fun q _ => ?_)
  rw [Tile1.tile_negHard_bit, Tile1.sel_bit, Tile1.pay21_apply, Tile1.tile_sim]
  rfl

theorem tile_negAll (s : Vec Ideal S1024x1 .f32) :
    newNegAll (grid1.coords t) (iblk1 V c 0 t) (iblk1 V c 1 t) (iblk1 V c 2 t) (iblk1 V c 3 t) s (ix2 p (0 : Fin 1))
      = (if t.val % 32 = 0 then (0 : EReal) else s (ix2 p (0 : Fin 1))) + ∑ q : Fin 256, if Cert.Spec.neg (rowLab V c) (colLab V c) (rowOf (pt1 t) p) (colOf (pt1 t) q) then Cert.Spec.eNeg (embOf V c) (rowOf (pt1 t) p) (colOf (pt1 t) q) else 0 := by
  unfold newNegAll
  rw [Tile1.pay26_apply, Tile1.old_apply t p (k1_pay8 (F := Ideal)) s (Tile1.pay4_apply p)]
  refine congrArg _ (Finset.sum_congr rfl fun q _ => ?_)
  rw [Tile1.tile_neg, Tile1.sel_bit, Tile1.pay21_apply, Tile1.tile_sim]
  rfl

theorem tile_anyPos (s : Vec Ideal S1024x1 .f32) :
    newAnyPos (grid1.coords t) (iblk1 V c 0 t) (iblk1 V c 1 t) (iblk1 V c 2 t) (iblk1 V c 3 t) (iblk1 V c 5 t) s (ix2 p (0 : Fin 1))
      = max (if t.val % 32 = 0 then (0 : EReal) else s (ix2 p (0 : Fin 1))) (if ∃ q : Fin 256, Cert.Spec.posHard (embOf V c) (rowLab V c) (colLab V c) (nmOf V c) (rowOf (pt1 t) p) (colOf (pt1 t) q) = true then (1 : EReal) else 0) := by
  unfold newAnyPos
  rw [Tile1.pay27_apply, Tile1.old_apply t p (k1_pay6 (F := Ideal)) s (Tile1.pay4_apply p)]
  refine congrArg _ ((Finset.sup_congr rfl fun q _ => ?_).trans (Tile1.sup_indicator _))
  rw [Tile1.tile_posHard_bit, Tile1.sitofp_bit]

theorem tile_anyNeg (s : Vec Ideal S1024x1 .f32) :
    newAnyNeg (grid1.coords t) (iblk1 V c 0 t) (iblk1 V c 1 t) (iblk1 V c 2 t) (iblk1 V c 3 t) (iblk1 V c 4 t) s (ix2 p (0 : Fin 1))
      = max (if t.val % 32 = 0 then (0 : EReal) else s (ix2 p (0 : Fin 1))) (if ∃ q : Fin 256, Cert.Spec.negHard (embOf V c) (rowLab V c) (colLab V c) (pmOf V c) (rowOf (pt1 t) p) (colOf (pt1 t) q) = true then (1 : EReal) else 0) := by
  unfold newAnyNeg
  show k1_pay27 (F := Ideal) _ _ _ = _
  rw [Tile1.pay27_apply, Tile1.old_apply t p (k1_pay9 (F := Ideal)) s (Tile1.pay4_apply p)]
  refine congrArg _ ((Finset.sup_congr rfl fun q _ => ?_).trans (Tile1.sup_indicator _))
  rw [Tile1.tile_negHard_bit, Tile1.sitofp_bit]

theorem tile_loss (s10 s11 s12 s13 s14 s15 : Vec Ideal S1024x1 .f32) :
    lossOut (grid1.coords t) (iblk1 V c 0 t) (iblk1 V c 1 t) (iblk1 V c 2 t) (iblk1 V c 3 t) (iblk1 V c 4 t) (iblk1 V c 5 t) s10 s11 s12 s13 s14 s15 (ix2 p (0 : Fin 1))
      = if Cert.Spec.validK (pmOf V c) (nmOf V c) (rowOf (pt1 t) p) then
          Ideal.div (Ideal.log1p (if 0 < newAnyPos (grid1.coords t) (iblk1 V c 0 t) (iblk1 V c 1 t) (iblk1 V c 2 t) (iblk1 V c 3 t) (iblk1 V c 5 t) s12 (ix2 p (0 : Fin 1))
              then newPosHard (grid1.coords t) (iblk1 V c 0 t) (iblk1 V c 1 t) (iblk1 V c 2 t) (iblk1 V c 3 t) (iblk1 V c 5 t) s10 (ix2 p (0 : Fin 1))
              else newPosAll (grid1.coords t) (iblk1 V c 0 t) (iblk1 V c 1 t) (iblk1 V c 2 t) (iblk1 V c 3 t) s11 (ix2 p (0 : Fin 1)))) (Cert.Spec.lit 0x40000000#32)
          + Ideal.div (Ideal.log1p (if 0 < newAnyNeg (grid1.coords t) (iblk1 V c 0 t) (iblk1 V c 1 t) (iblk1 V c 2 t) (iblk1 V c 3 t) (iblk1 V c 4 t) s15 (ix2 p (0 : Fin 1))
              then newNegHard (grid1.coords t) (iblk1 V c 0 t) (iblk1 V c 1 t) (iblk1 V c 2 t) (iblk1 V c 3 t) (iblk1 V c 4 t) s13 (ix2 p (0 : Fin 1))
              else newNegAll (grid1.coords t) (iblk1 V c 0 t) (iblk1 V c 1 t) (iblk1 V c 2 t) (iblk1 V c 3 t) s14 (ix2 p (0 : Fin 1)))) (Cert.Spec.lit 0x42480000#32)
        else 0 := by
  unfold lossOut
  rw [Tile1.pay2_apply]
  simp only [Tile1.valid_iff]

theorem tile_valid :
    validOut (F := Ideal) (iblk1 V c 4 t) (iblk1 V c 5 t) (ix2 p (0 : Fin 1))
      = if Cert.Spec.validK (pmOf V c) (nmOf V c) (rowOf (pt1 t) p) then (1 : EReal) else 0 := by
  unfold validOut
  rw [Tile1.pay3_apply]
  simp only [Tile1.valid_iff]

end Cert.KernelIdeal.Hand

end
-- ==== Proof.Val1.lean ====
import proofs.«144984_j9225589752058_1_alg».proof.Proof.Dat1
import proofs.«144984_j9225589752058_1_alg».proof.Proof.Spec
import proofs.«144984_j9225589752058_1_alg».proof.Proof.Arrays
import proofs.«144984_j9225589752058_1_alg».proof.Proof.Tiles
import proofs.«144984_j9225589752058_1_alg».proof.Proof.Val1Tile

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

namespace Val1

open scoped Classical

def colN (j : ℕ) (q : Fin 256) : Fin 8192 := ⟨(256 * j + q.val) % 8192, Nat.mod_lt _ (by omega)⟩

-- Summing tile by tile, 32 tiles of 256 columns, is summing over all columns.
theorem sum_cols (f : Fin 8192 → EReal) : ∑ k ∈ Finset.range 32, ∑ q : Fin 256, f (colN k q) = ∑ c, f c := by
  rw [Finset.sum_range, ← (finProdFinEquiv : Fin 32 × Fin 256 ≃ Fin 8192).sum_comp f, Fintype.sum_prod_type]
  refine Finset.sum_congr rfl fun j _ => Finset.sum_congr rfl fun q _ => congrArg f (Fin.ext ?_)
  show (256 * j.val + q.val) % 8192 = q.val + 256 * j.val
  omega

theorem exists_cols (H : Fin 8192 → Prop) : (∃ k, k ≤ 31 ∧ ∃ q : Fin 256, H (colN k q)) ↔ ∃ c, H c :=
  ⟨fun ⟨_, _, _, h⟩ => ⟨_, h⟩, fun ⟨c, h⟩ => ⟨c.val / 256, by omega, ⟨c.val % 256, by omega⟩, by
    rwa [show colN (c.val / 256) ⟨c.val % 256, by omega⟩ = c from Fin.ext (by show (256 * (c.val / 256) + c.val % 256) % 8192 = c.val; omega)]⟩⟩

theorem flag_zero (P : ℕ → Prop) [DecidablePred P] [Decidable (∃ k, k ≤ 0 ∧ P k)] :
    (if ∃ k, k ≤ 0 ∧ P k then 1 else 0 : EReal) = max 0 (if P 0 then 1 else 0) := by
  by_cases h : P 0 <;> simp [h]

theorem flag_succ (P : ℕ → Prop) [DecidablePred P] (j : ℕ) [Decidable (∃ k, k ≤ j ∧ P k)] [Decidable (∃ k, k ≤ j + 1 ∧ P k)] :
    (if ∃ k, k ≤ j + 1 ∧ P k then 1 else 0 : EReal) = max (if ∃ k, k ≤ j ∧ P k then 1 else 0) (if P (j + 1) then 1 else 0) := by
  by_cases h : P (j + 1) <;> by_cases h' : ∃ k, k ≤ j ∧ P k <;> simp [h, h', Nat.le_succ_iff, or_and_right, exists_or]

-- Equivalent conditions, whatever their decision procedures, select the same branch.
theorem ite_iff {α : Type} {b b' : Prop} {db : Decidable b} {db' : Decidable b'} (h : b ↔ b') (x y : α) :
    @ite α b db x y = @ite α b' db' x y := by
  by_cases hb : b
  · rw [@if_pos _ db hb, @if_pos _ db' (h.mp hb)]
  · rw [@if_neg _ db hb, @if_neg _ db' (fun hc => hb (h.mpr hc))]

-- Testing 0 < (1 if E, else 0) is testing E.
theorem ite_flag (E : Prop) [Decidable E] [Decidable ((0 : EReal) < if E then 1 else 0)] (a b : EReal) :
    (if (0 : EReal) < (if E then 1 else 0) then a else b) = if E then a else b := by
  by_cases h : E
  · simp only [if_pos h, if_pos (zero_lt_one (α := EReal))]
  · simp only [if_neg h, if_neg (lt_irrefl (0 : EReal))]

section Row
variable (c : Dev nD) (t : Fin cfg1.N) (ht : t.val % 32 = 31) (p : Fin 1024) (π : Cols Ideal → Vec Ideal S1024x1 .f32)
include ht

section
variable (op : EReal → EReal → EReal) (G : Fin 8192 → (Fin 256 → Fin 8192) → EReal) (R : ℕ → EReal)
  (h : ∀ u : Fin cfg1.N, (π (sc1 V c (u.val + 1)) (ix2 p 0) : EReal)
    = op (if u.val % 32 = 0 then 0 else π (sc1 V c u.val) (ix2 p 0)) (G (rowOf (pt1 u) p) (colOf (pt1 u))))
  (h0 : R 0 = op 0 (G (rowOf (pt1 t) p) (colN 0))) (hs : ∀ j, R (j + 1) = op (R j) (G (rowOf (pt1 t) p) (colN (j + 1))))
include h h0 hs

-- Restarted at the first tile of a row of tiles and updated by op at each tile, a column holds after the last tile the op-fold of all 32 terms.
theorem row_fold : (π (sc1 V c (t.val + 1)) (ix2 p 0) : EReal) = R 31 := by
  have key : ∀ j n (hn : n + 31 = t.val + j) (hj : j < 32), (π (sc1 V c (n + 1)) (ix2 p 0) : EReal)
      = op (if n % 32 = 0 then 0 else π (sc1 V c n) (ix2 p 0)) (G (rowOf (pt1 t) p) (colN j)) := fun j n hn hj => by
    have e := h ⟨n, Nat.lt_of_le_of_lt (by omega) t.isLt⟩
    rwa [show rowOf (pt1 ⟨n, _⟩) p = rowOf (pt1 t) p from Fin.ext (by show 1024 * (n / 32) + p.val = 1024 * (t.val / 32) + p.val; omega),
      show colOf (pt1 ⟨n, _⟩) = colN j from funext fun q => Fin.ext (by show 256 * (n % 32) + q.val = (256 * j + q.val) % 8192; omega)] at e
  have all : ∀ j n, n + 31 = t.val + j → j < 32 → (π (sc1 V c (n + 1)) (ix2 p 0) : EReal) = R j := by
    intro j
    induction j with
    | zero => intro n hn hj; rw [key 0 n hn hj, if_pos (by omega), h0]
    | succ j ih =>
      intro n hn hj
      obtain ⟨n, rfl⟩ : ∃ n', n = n' + 1 := ⟨n - 1, by omega⟩
      rw [key (j + 1) _ hn hj, if_neg (by omega), hs, ← ih n (by omega) (by omega)]
  exact all 31 t.val rfl (by omega)
end

-- A sum accumulated tile by tile along a row of tiles is the sum over all columns.
theorem row_sum (f : Fin 8192 → Fin 8192 → EReal)
    (h : ∀ u : Fin cfg1.N, (π (sc1 V c (u.val + 1)) (ix2 p 0) : EReal)
      = (if u.val % 32 = 0 then 0 else π (sc1 V c u.val) (ix2 p 0)) + ∑ q : Fin 256, f (rowOf (pt1 u) p) (colOf (pt1 u) q)) :
    (π (sc1 V c (t.val + 1)) (ix2 p 0) : EReal) = ∑ c', f (rowOf (pt1 t) p) c' :=
  (row_fold V c t ht p π (· + ·) (fun r κ => ∑ q, f r (κ q)) (fun j => ∑ k ∈ Finset.range (j + 1), ∑ q, f (rowOf (pt1 t) p) (colN k q)) h
    ((Finset.sum_range_one _).trans (zero_add _).symm) fun j => Finset.sum_range_succ _ _).trans (sum_cols (f (rowOf (pt1 t) p)))

-- A 0/1 flag raised tile by tile is 1 exactly when some column of the row has the property.
theorem row_any (H : Fin 8192 → Fin 8192 → Bool)
    (h : ∀ u : Fin cfg1.N, (π (sc1 V c (u.val + 1)) (ix2 p 0) : EReal)
      = max (if u.val % 32 = 0 then 0 else π (sc1 V c u.val) (ix2 p 0)) (if ∃ q : Fin 256, H (rowOf (pt1 u) p) (colOf (pt1 u) q) = true then 1 else 0)) :
    (π (sc1 V c (t.val + 1)) (ix2 p 0) : EReal) = if ∃ c', H (rowOf (pt1 t) p) c' = true then 1 else 0 :=
  (row_fold V c t ht p π max (fun r κ => if ∃ q, H r (κ q) = true then 1 else 0) (fun j => if ∃ k, k ≤ j ∧ ∃ q, H (rowOf (pt1 t) p) (colN k q) = true then 1 else 0) h
    (flag_zero fun k => ∃ q, H (rowOf (pt1 t) p) (colN k q) = true) fun j => flag_succ (fun k => ∃ q, H (rowOf (pt1 t) p) (colN k q) = true) j).trans
    (ite_iff (exists_cols fun c' => H (rowOf (pt1 t) p) c' = true) _ _)

-- After the last tile of a row of tiles the six columns hold the row's four sums and two flags, so the loss formed from them is the specification's.
theorem row_loss :
    lossOut (grid1.coords t) (iblk1 V c 0 t) (iblk1 V c 1 t) (iblk1 V c 2 t) (iblk1 V c 3 t) (iblk1 V c 4 t) (iblk1 V c 5 t)
        (sc1 V c t.val).posHard (sc1 V c t.val).posAll (sc1 V c t.val).anyPos (sc1 V c t.val).negHard (sc1 V c t.val).negAll (sc1 V c t.val).anyNeg (ix2 p 0)
      = if Cert.Spec.validK (pmOf V c) (nmOf V c) (rowOf (pt1 t) p)
        then Cert.Spec.rowLoss (embOf V c) (rowLab V c) (colLab V c) (pmOf V c) (nmOf V c) (rowOf (pt1 t) p) else 0 := by
  have h1 := row_sum V c t ht p (·.posHard) (fun r c' => if Cert.Spec.posHard (embOf V c) (rowLab V c) (colLab V c) (nmOf V c) r c' then Cert.Spec.ePos (embOf V c) r c' else 0)
    fun u => by rw [sc1_succ]; exact tile_posHard V c u p _
  have h2 := row_sum V c t ht p (·.posAll) (fun r c' => if Cert.Spec.pos (rowLab V c) (colLab V c) r c' then Cert.Spec.ePos (embOf V c) r c' else 0)
    fun u => by rw [sc1_succ]; exact tile_posAll V c u p _
  have h3 := row_any V c t ht p (·.anyPos) (Cert.Spec.posHard (embOf V c) (rowLab V c) (colLab V c) (nmOf V c))
    fun u => by rw [sc1_succ]; exact tile_anyPos V c u p _
  have h4 := row_sum V c t ht p (·.negHard) (fun r c' => if Cert.Spec.negHard (embOf V c) (rowLab V c) (colLab V c) (pmOf V c) r c' then Cert.Spec.eNeg (embOf V c) r c' else 0)
    fun u => by rw [sc1_succ]; exact tile_negHard V c u p _
  have h5 := row_sum V c t ht p (·.negAll) (fun r c' => if Cert.Spec.neg (rowLab V c) (colLab V c) r c' then Cert.Spec.eNeg (embOf V c) r c' else 0)
    fun u => by rw [sc1_succ]; exact tile_negAll V c u p _
  have h6 := row_any V c t ht p (·.anyNeg) (Cert.Spec.negHard (embOf V c) (rowLab V c) (colLab V c) (pmOf V c))
    fun u => by rw [sc1_succ]; exact tile_anyNeg V c u p _
  rw [sc1_succ] at h1 h2 h3 h4 h5 h6
  dsimp only at h1 h2 h3 h4 h5 h6
  rw [tile_loss V c t p, h1, h2, h3, h4, h5, h6, ite_flag, ite_flag]
  unfold Cert.Spec.rowLoss Cert.Spec.posSum Cert.Spec.negSum
  exact (ite_iff Iff.rfl _ _).trans (congrArg (fun x => if Cert.Spec.validK (pmOf V c) (nmOf V c) (rowOf (pt1 t) p) = true then x else 0)
    (congrArg₂ (· + ·) (congrArg (fun x => Ideal.div (Ideal.log1p x) _) (ite_iff Iff.rfl _ _)) (congrArg (fun x => Ideal.div (Ideal.log1p x) _) (ite_iff Iff.rfl _ _))))
end Row

theorem idx1 : ∀ t : Fin cfg1.N, win1_6.index t (0 : Fin 2) = t.val / 32 ∧ win1_6.index t (1 : Fin 2) = 0 :=
  (by decide +kernel : ∀ t : Fin grid1.N, _)

-- Row p of a result block at point t is row 1024 (t / 32) + p of the array; both result windows have this block map.
theorem emb1_6 (t : Fin cfg1.N) (p : Fin 1024) :
    ((cfg1.win 6).blk t).view.emb (ix2 p 0) = ix2 (rowOf (pt1 t) p) (0 : Fin 1) := by
  funext a; apply Fin.ext
  match a with
  | ⟨0, _⟩ =>
    show win1_6.index t (0 : Fin 2) * 1024 + 1 * p.val = 1024 * (t.val / 32) + p.val
    rw [(idx1 t).1]
    omega
  | ⟨1, _⟩ =>
    show win1_6.index t (1 : Fin 2) * 1 + 1 * 0 = 0
    rw [(idx1 t).2]

def lossG (c : Dev nD) : Vec Ideal S8192x1 .f32 := fun idx =>
  if Cert.Spec.validK (pmOf V c) (nmOf V c) ⟨(idx 0).val, (idx 0).isLt⟩
  then Cert.Spec.rowLoss (embOf V c) (rowLab V c) (colLab V c) (pmOf V c) (nmOf V c) ⟨(idx 0).val, (idx 0).isLt⟩ else 0

def validG (c : Dev nD) : Vec Ideal S8192x1 .f32 := fun idx =>
  if Cert.Spec.validK (pmOf V c) (nmOf V c) ⟨(idx 0).val, (idx 0).isLt⟩ then (1 : EReal) else 0

-- On its rows, the block written after a row of tiles holds the gated row losses.
theorem flushed1_6 (c : Dev nD) (t : Fin cfg1.N) (hf : (cfg1.win 6).flush t = true) :
    (dat1 V c).flushed 6 t = ((cfg1.win 6).blk t).view.read (Elt Ideal) (lossG V c) := by
  show (cfg1.win 6).cut (grid1.coords t) ((dat1 V c).after 6 t) = _
  rw [after1_6]
  funext y
  obtain ⟨p, z, rfl⟩ : ∃ (p : Fin 1024) (z : Fin 1), y = ix2 p z := ⟨y 0, y 1, eq_ix2 y⟩
  obtain rfl : z = 0 := Subsingleton.elim _ _
  exact (row_loss V c t ((flush1_6 t).mp hf) p).trans (congrArg (lossG V c) (emb1_6 t p).symm)

-- Likewise the validity flags.
theorem flushed1_7 (c : Dev nD) (t : Fin cfg1.N) (hf : (cfg1.win 7).flush t = true) :
    (dat1 V c).flushed 7 t = ((cfg1.win 7).blk t).view.read (Elt Ideal) (validG V c) := by
  show (cfg1.win 7).cut (grid1.coords t) ((dat1 V c).after 7 t) = _
  rw [after1_7]
  funext y
  obtain ⟨p, z, rfl⟩ : ∃ (p : Fin 1024) (z : Fin 1), y = ix2 p z := ⟨y 0, y 1, eq_ix2 y⟩
  obtain rfl : z = 0 := Subsingleton.elim _ _
  exact (tile_valid V c t p).trans (congrArg (validG V c) (emb1_6 t p).symm)

-- Every row is row p of the last tile t of its row of tiles.
theorem rows (r : Fin 8192) : ∃ (t : Fin cfg1.N) (p : Fin 1024), t.val % 32 = 31 ∧ r = rowOf (pt1 t) p := by
  have hr := r.isLt
  exact ⟨⟨32 * (r.val / 1024) + 31, Nat.lt_of_lt_of_eq (by omega) N_1.symm⟩, ⟨r.val % 1024, by omega⟩, by show (32 * (r.val / 1024) + 31) % 32 = 31; omega,
    Fin.ext (by show r.val = 1024 * ((32 * (r.val / 1024) + 31) / 32) + r.val % 1024; omega)⟩

end Val1

theorem loss_arr (c : Dev nD) (r : Fin 8192) :
    ((dat1 V c).arrAt 6 cfg1.N : Vec Ideal S8192x1 .f32) (ix2 r (0 : Fin 1))
      = if Cert.Spec.validK (pmOf V c) (nmOf V c) r
        then Cert.Spec.rowLoss (embOf V c) (rowLab V c) (colLab V c) (pmOf V c) (nmOf V c) r else 0 := by
  obtain ⟨t, p, ht, rfl⟩ := Val1.rows r
  refine ((dat1 V c).arrAt_apply_of_mem 6 (Val1.lossG V c) (Val1.flushed1_6 V c) cfg1.N t (ix2 (rowOf (pt1 t) p) (0 : Fin 1)) t.isLt ((flush1_6 _).mpr ht) ?_).trans rfl
  rw [← Val1.emb1_6]
  exact ((cfg1.win 6).blk t).view.emb_mem_set _

theorem valid_arr (c : Dev nD) (r : Fin 8192) :
    ((dat1 V c).arrAt 7 cfg1.N : Vec Ideal S8192x1 .f32) (ix2 r (0 : Fin 1))
      = if Cert.Spec.validK (pmOf V c) (nmOf V c) r then (1 : EReal) else 0 := by
  obtain ⟨t, p, ht, rfl⟩ := Val1.rows r
  refine ((dat1 V c).arrAt_apply_of_mem 7 (Val1.validG V c) (Val1.flushed1_7 V c) cfg1.N t (ix2 (rowOf (pt1 t) p) (0 : Fin 1)) t.isLt ((flush1_7 _).mpr ht) ?_).trans rfl
  rw [← Val1.emb1_6]
  exact ((cfg1.win 7).blk t).view.emb_mem_set _

end Cert.KernelIdeal.Hand

end
-- ==== Proof.KernelValue.lean ====
import proofs.«144984_j9225589752058_1_alg».proof.Proof.Run
import proofs.«144984_j9225589752058_1_alg».proof.Proof.Val0
import proofs.«144984_j9225589752058_1_alg».proof.Proof.Val1
import Idealize.ShloMosaic.Lib.IdealHost
import Mathlib.Algebra.BigOperators.Fin

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

def embM : Fin 8192 → Fin 128 → EReal := fun r k => (m ((c : Thread nD τ).loc main_arg0) : Vec Ideal S8192x128 .f32) (ix2 r k)
def labM : Fin 8192 → BitVec 32 := fun r => (m ((c : Thread nD τ).loc main_arg1) : Vec Ideal S8192 .i32) (ix1 r)

theorem embOf_VE0 : embOf (VE0 m) c = embM m c := by
  unfold embOf embM
  rw [VE0_arg0]

-- Reshaping a vector of 8192 into a column keeps entry r at row r.
theorem rowLab_VE0 : rowLab (VE0 m) c = labM m c := by
  funext r
  unfold rowLab labM
  rw [VE0_v0]
  refine shapeCast_apply _ _ _ (ix1 r) ?_
  rw [Shape.rowMajor_val_two, Shape.rowMajor_val_one]
  show r.val = r.val * 1 + 0
  omega

-- Reshaping it into a row keeps entry r at column r.
theorem colLab_VE0 : colLab (VE0 m) c = labM m c := by
  funext r
  unfold colLab labM
  rw [VE0_v1]
  refine shapeCast_apply _ _ _ (ix1 r) ?_
  rw [Shape.rowMajor_val_two, Shape.rowMajor_val_one]
  show r.val = 0 * 8192 + r.val
  omega

theorem embOf_VE1 : embOf (VE1 m) c = embM m c := by
  rw [← embOf_VE0]
  unfold embOf
  rw [VE1_arg0]
theorem rowLab_VE1 : rowLab (VE1 m) c = labM m c := by
  rw [← rowLab_VE0]
  unfold rowLab
  rw [VE1_v0]
theorem colLab_VE1 : colLab (VE1 m) c = labM m c := by
  rw [← colLab_VE0]
  unfold colLab
  rw [VE1_v1]

-- The second pass's thresholds are each row's least positive and greatest negative similarity.
theorem pmOf_VE1 : pmOf (VE1 m) c = Cert.Spec.posMin (embM m c) (labM m c) (labM m c) := by
  funext r
  unfold pmOf
  rw [VE1_v2_0, posmin_arr, embOf_VE0, rowLab_VE0, colLab_VE0]
theorem nmOf_VE1 : nmOf (VE1 m) c = Cert.Spec.negMax (embM m c) (labM m c) (labM m c) := by
  funext r
  unfold nmOf
  rw [VE1_v2_1, negmax_arr, embOf_VE0, rowLab_VE0, colLab_VE0]

-- Reducing an [8192, 1] array over both axes from 0 adds up its 8192 rows.
theorem hostSum_rows (x : FVec Ideal S8192x1 .f32) (j : S_.Idx) :
    Host.reduceAdd x (constant (F := Ideal) S_ .f32 0x00000000#32) reducesTo_S8192x1_S_d0_1 h_S_ j = ∑ r : Fin 8192, x (ix2 r (0 : Fin 1)) := by
  rw [hostReduceAdd_apply, Ideal.hostReduceAdd_total _ (fun b => b.elim0), constant_apply, Ideal.ofBits_zero_f32, zero_add, sum_idx2]
  exact Finset.sum_congr rfl fun r _ => Fin.sum_univ_one _

theorem kernel_value :
    (Wfin m c (Proc.devRef .tc main_v7) : Vec Ideal S_ .f32) = fun _ => Cert.Spec.lossK (embM m c) (labM m c) := by
  funext j
  rw [Wfin_v7, hostDivf_apply, maximumf_apply, hostSum_rows, hostSum_rows, constant_apply, Ideal.ofBits_one_f32]
  unfold Cert.Spec.lossK Cert.Spec.total
  refine congrArg₂ Ideal.div (Finset.sum_congr rfl fun r _ => ?_) (congrArg (max · 1) (Finset.sum_congr rfl fun r _ => ?_))
  · rw [loss_arr, embOf_VE1, rowLab_VE1, colLab_VE1, pmOf_VE1, nmOf_VE1]
  · rw [valid_arr, pmOf_VE1, nmOf_VE1]

end Cert.KernelIdeal.Hand

end
-- ==== Proof.RefRunVal.lean ====
import proofs.«144984_j9225589752058_1_alg».proof.Proof.RefReadEq

noncomputable section

namespace Cert.ReferenceIdeal.Hand

open Cert.ReferenceIdeal Idealize.ShloMosaic Idealize.ShloMosaic.TcCoe Idealize.SL.Sem

variable {F : FTy → Type} [FloatOps F]

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
          = Cert.ReferenceIdeal.Read.val_main_v66 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Cert.ReferenceIdeal.Read.val_main_v66_eq m c), (h c).2⟩)
    (Cert.ReferenceIdeal.Value.run (F := F) m ρ)

end Cert.ReferenceIdeal.Hand

end
-- ==== Proof.RefFrame.lean ====
import proofs.«144984_j9225589752058_1_alg».proof.Proof.RefRunVal

noncomputable section

namespace Cert.ReferenceIdeal.Hand

open Idealize.ShloMosaic Idealize.ShloMosaic.TcCoe Idealize.SL.Sem

theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => (h c).2) (ref_run (F := Ideal) m ρ)

end Cert.ReferenceIdeal.Hand

end
-- ==== Proof.RefArr.lean ====
import proofs.«144984_j9225589752058_1_alg».proof.ReferenceIdeal
import Idealize.ShloMosaic.PureOps.Ideal
import Idealize.ShloMosaic.Lib.ValueIdx

noncomputable section

namespace Cert.ReferenceIdeal.Hand

open Cert.ReferenceIdeal
open Idealize.ShloMosaic Idealize.ShloMosaic.ValueIdx

variable (x0 : (⟨S8192x128, .f32⟩ : BufTy).Contents (Elt Ideal)) (x1 : (⟨S8192, .i32⟩ : BufTy).Contents (Elt Ideal))

def embR : Fin 8192 → Fin 128 → EReal := fun r k => (x0 : Vec Ideal S8192x128 .f32) (ix2 r k)
def labR : Fin 8192 → BitVec 32 := fun r => (x1 : Vec Ideal S8192 .i32) (ix1 r)

end Cert.ReferenceIdeal.Hand

end
-- ==== Proof.RefA.lean ====
import proofs.«144984_j9225589752058_1_alg».proof.Proof.RefRead
import proofs.«144984_j9225589752058_1_alg».proof.Proof.Spec
import proofs.«144984_j9225589752058_1_alg».proof.Proof.RefArr

noncomputable section

namespace Cert.ReferenceIdeal.Hand

open Cert.ReferenceIdeal Cert.ReferenceIdeal.Read
open Idealize.ShloMosaic Idealize.ShloMosaic.ValueIdx
open scoped Classical

variable (x0 : (⟨S8192x128, .f32⟩ : BufTy).Contents (Elt Ideal)) (x1 : (⟨S8192, .i32⟩ : BufTy).Contents (Elt Ideal))

theorem andi_bit (p q : Bool) :
    IntOp.andi (if p then (1#1 : BitVec 1) else 0#1) (BitVec.ofBool q) = if (p && q) then 1#1 else 0#1 := by
  cases p <;> cases q <;> rfl

theorem select_bit {α : Type} (p : Prop) [Decidable p] (a b : α) :
    Scalar.select (if p then (1#1 : BitVec 1) else 0#1) a b = if p then a else b := by
  by_cases h : p
  · rw [if_pos h, if_pos h, select_one]
  · rw [if_neg h, if_neg h, select_zero]

theorem fold_ori_indicator {ι : Type} (s : Finset ι) (f : ι → Bool) :
    s.fold IntOp.ori (0#1 : BitVec 1) (fun k => if f k then (1#1 : BitVec 1) else 0#1)
      = if ∃ k ∈ s, f k = true then (1#1 : BitVec 1) else 0#1 := by
  induction s using Finset.induction_on with
  | empty => simp
  | insert a s ha ih =>
    rw [Finset.fold_insert ha, ih]
    by_cases h1 : f a = true <;> by_cases h2 : ∃ k ∈ s, f k = true <;> simp [h1, h2, Finset.exists_mem_insert] <;> rfl

-- A reduction along axis 1 read at row r is the fold of the operation over the row's entries.
theorem reduce_row {α : Type} (op : α → α → α) [Std.Commutative op] [Std.Associative op] (m : S8192x8192.Idx → α)
    (init : S_.Idx → α) (g : Fin 8192 → Fin 8192 → α) (h' : S8192x8192.ReducesTo [1] S8192) (hu : 0 < S_.numel)
    (hm : ∀ r c, m (ix2 r c) = g r c) (r : Fin 8192) :
    Host.reduce op m init h' hu (ix1 r) = (Finset.univ : Finset (Fin 8192)).fold op (init (Shape.Idx.first hu)) (g r) := by
  have h : S8192x8192.Reduces [1] S8192 := by decide
  rw [Host.reduce_eq_fold_single op m init h' h hu (ix1 r)]
  exact congrArg (fun f => Finset.fold op _ f (Finset.univ : Finset (Fin 8192)))
    (funext fun k => (congrArg m (eq_ix2 _)).trans (hm r k))

theorem or_row (m : S8192x8192.Idx → BitVec 1) (init : S_.Idx → BitVec 1) (f : Fin 8192 → Fin 8192 → Bool)
    (h' : S8192x8192.ReducesTo [1] S8192) (hu : 0 < S_.numel) (hinit : init (Shape.Idx.first hu) = 0#1)
    (hm : ∀ r c, m (ix2 r c) = if f r c then (1#1 : BitVec 1) else 0#1) (r : Fin 8192) :
    Host.reduce IntOp.ori m init h' hu (ix1 r) = if ∃ c, f r c = true then (1#1 : BitVec 1) else 0#1 := by
  rw [reduce_row IntOp.ori m init _ h' hu hm r, hinit, fold_ori_indicator]
  simp only [Finset.mem_univ, true_and]

theorem sim_ref (r c : Fin 8192) : val_main_v1 (F := Ideal) x0 (ix2 r c) = Cert.Spec.sim (embR x0) r c := by
  rw [val_main_v1_apply]
  refine Finset.sum_congr rfl fun k _ => ?_
  rw [val_main_v0_apply, (eq_ix2 _ : lidx_main_v1 (ix2 r c) k = ix2 r k),
    (eq_ix2 _ : idx_main_v0 (ridx_main_v1 (ix2 r c) k) = ix2 c k)]
  rfl

private theorem cmpi_eq_ite {w : Nat} (a b : BitVec w) : IntOp.cmpi .eq a b = if a = b then (1#1 : BitVec 1) else 0#1 := by
  unfold IntOp.cmpi
  by_cases h : a = b
  · simp [h]
  · simp [h, beq_eq_false_iff_ne.2 h]

private theorem ofNat_fin_eq_iff (r c : Fin 8192) : BitVec.ofNat 32 r.val = BitVec.ofNat 32 c.val ↔ r = c := by
  refine ⟨fun h => Fin.ext ?_, fun h => by rw [h]⟩
  have h2 := congrArg BitVec.toNat h
  simp only [BitVec.toNat_ofNat] at h2
  omega

private theorem eq_ref (r c : Fin 8192) : val_main_v6 (F := Ideal) x1 (ix2 r c) = (if labR x1 r = labR x1 c then (1#1 : BitVec 1) else 0#1) := by
  rw [val_main_v6_apply, val_main_v4_apply, val_main_v5_apply, val_main_v2_apply, val_main_v3_apply,
    (eq_ix1 _ : idx_main_v2 (idx_main_v4 (ix2 r c)) = ix1 r), (eq_ix1 _ : idx_main_v3 (idx_main_v5 (ix2 r c)) = ix1 c), cmpi_eq_ite]
  rfl

private theorem offdiag_ref (r c : Fin 8192) : val_main_v12 (F := Ideal) (ix2 r c) = (if r = c then (0#1 : BitVec 1) else 1#1) := by
  rw [val_main_v12_apply, val_main_v11_apply, val_main_v10_apply, val_main_v7_apply, val_main_v8_apply, val_main_v9_apply,
    val_main_c_apply, cmpi_eq_ite]
  show ~~~(if BitVec.ofNat 32 r.val + 0#32 = BitVec.ofNat 32 c.val then (1#1 : BitVec 1) else 0#1) = _
  simp only [BitVec.add_zero, ofNat_fin_eq_iff]
  split <;> rfl

theorem pos_ref (r c : Fin 8192) : val_main_v13 (F := Ideal) x1 (ix2 r c) = (if Cert.Spec.pos (labR x1) (labR x1) r c then (1#1 : BitVec 1) else 0#1) := by
  rw [val_main_v13_apply, eq_ref, offdiag_ref]
  unfold Cert.Spec.pos IntOp.andi
  by_cases h1 : labR x1 r = labR x1 c <;> by_cases h2 : r = c <;> simp [h1, h2]

theorem neg_ref (r c : Fin 8192) : val_main_v14 (F := Ideal) x1 (ix2 r c) = (if Cert.Spec.neg (labR x1) (labR x1) r c then (1#1 : BitVec 1) else 0#1) := by
  rw [val_main_v14_apply, eq_ref]
  unfold Cert.Spec.neg
  by_cases h1 : labR x1 r = labR x1 c <;> simp [h1]

private theorem inf_bits : (FloatOps.ofBits .f32 0x7F800000#32 : Ideal .f32) = ⊤
    ∧ (FloatOps.ofBits .f32 0xFF800000#32 : Ideal .f32) = ⊥ := by
  constructor <;> simp [Ideal.ofBits_def, Ideal.ofBits, Ideal.ieee]

private theorem posmasked_ref (r c : Fin 8192) : val_main_v15 (F := Ideal) x0 x1 (ix2 r c)
    = if Cert.Spec.pos (labR x1) (labR x1) r c then Cert.Spec.sim (embR x0) r c else ⊤ := by
  rw [val_main_v15_apply, pos_ref, sim_ref, val_main_call0_v1_apply, val_main_call0_v0_apply, val_main_cst_apply, inf_bits.1, select_bit]

private theorem negmasked_ref (r c : Fin 8192) : val_main_v17 (F := Ideal) x0 x1 (ix2 r c)
    = if Cert.Spec.neg (labR x1) (labR x1) r c then Cert.Spec.sim (embR x0) r c else ⊥ := by
  rw [val_main_v17_apply, neg_ref, sim_ref, val_main_call1_v1_apply, val_main_call1_v0_apply, val_main_cst_1_apply, inf_bits.2, select_bit]

-- The fold of min from the top element is the lattice's infimum, by definition.
theorem posmin_ref (r : Fin 8192) : val_main_v16 (F := Ideal) x0 x1 (ix1 r) = Cert.Spec.posMin (embR x0) (labR x1) (labR x1) r := by
  unfold val_main_v16
  rw [reduce_row _ _ _ _ _ _ (posmasked_ref x0 x1) r, val_main_cst_0_apply, inf_bits.1]
  rfl

theorem negmax_ref (r : Fin 8192) : val_main_v18 (F := Ideal) x0 x1 (ix1 r) = Cert.Spec.negMax (embR x0) (labR x1) (labR x1) r := by
  unfold val_main_v18
  rw [reduce_row _ _ _ _ _ _ (negmasked_ref x0 x1) r, val_main_cst_2_apply, inf_bits.2]
  rfl

-- Summing under a mask chosen by one bit is choosing, by that bit, between the two masked sums.
theorem sum_select_mask (hard all : Fin 8192 → Bool) (t : Fin 8192 → EReal) (z : EReal) (hz : z = 0) (b : BitVec 1)
    {d d' : Decidable (∃ c, hard c = true)} (hb : b = @ite _ _ d (1#1 : BitVec 1) 0#1) :
    z + ∑ k, Scalar.select (Scalar.select b (if hard k then (1#1 : BitVec 1) else 0#1) (if all k then (1#1 : BitVec 1) else 0#1)) (t k) z
      = @ite _ _ d' (∑ k, if hard k then t k else 0) (∑ k, if all k then t k else 0) := by
  subst hz hb
  rw [zero_add]
  by_cases h : ∃ c, hard c = true
  · rw [if_pos h, if_pos h]; simp only [select_one, select_bit]
  · rw [if_neg h, if_neg h]; simp only [select_zero, select_bit]

end Cert.ReferenceIdeal.Hand

end
-- ==== Proof.RefB1.lean ====
import proofs.«144984_j9225589752058_1_alg».proof.Proof.RefA

noncomputable section

namespace Cert.ReferenceIdeal.Hand

open Cert.ReferenceIdeal Cert.ReferenceIdeal.Read
open Idealize.ShloMosaic Idealize.ShloMosaic.ValueIdx
open scoped Classical

variable (x0 : (⟨S8192x128, .f32⟩ : BufTy).Contents (Elt Ideal)) (x1 : (⟨S8192, .i32⟩ : BufTy).Contents (Elt Ideal))

theorem v30_at (r c : Fin 8192) : val_main_v30 (F := Ideal) x0 x1 (ix2 r c)
    = if Cert.Spec.posHard (embR x0) (labR x1) (labR x1) (Cert.Spec.negMax (embR x0) (labR x1) (labR x1)) r c then (1#1 : BitVec 1) else 0#1 := by
  rw [val_main_v30_apply, pos_ref, val_main_v29_apply, val_main_v26_apply, val_main_v28_apply, val_main_v27_apply,
    val_main_v25_apply, val_main_cst_4_apply, (show idx_main_v27 (idx_main_v28 (ix2 r c)) = ix1 r from eq_ix1 _), sim_ref, negmax_ref]
  exact andi_bit _ _

theorem v34_at (r : Fin 8192) : val_main_v34 (F := Ideal) x0 x1 (ix1 r)
    = if ∃ c, Cert.Spec.posHard (embR x0) (labR x1) (labR x1) (Cert.Spec.negMax (embR x0) (labR x1) (labR x1)) r c = true
      then (1#1 : BitVec 1) else 0#1 := by
  unfold val_main_v34
  exact or_row _ _ _ _ _ rfl (v30_at x0 x1) r

theorem v41_at (r c : Fin 8192) : val_main_v41 (F := Ideal) x0 (ix2 r c) = Cert.Spec.ePos (embR x0) r c := by
  rw [val_main_v41_apply, val_main_v40_apply, val_main_v39_apply, val_main_cst_8_apply, val_main_v38_apply,
    val_main_v37_apply, val_main_cst_7_apply, sim_ref]
  rfl

theorem possum_ref (r : Fin 8192) : val_main_v43 (F := Ideal) x0 x1 (ix1 r)
    = Cert.Spec.posSum (embR x0) (labR x1) (labR x1) (Cert.Spec.negMax (embR x0) (labR x1) (labR x1)) r := by
  unfold Cert.Spec.posSum Cert.Spec.posHardSum Cert.Spec.posAllSum
  refine Eq.trans ?_ (sum_select_mask _ _ _ _ Ideal.ofBits_zero_f32 _ (v34_at x0 x1 r))
  rw [val_main_v43_apply, val_main_cst_10_apply]
  refine congrArg (_ + ·) (Finset.sum_congr rfl fun k _ => ?_)
  rw [(show idx_main_v43 (ix1 r) k = ix2 r k from eq_ix2 _), val_main_v42_apply, val_main_v36_apply, val_main_call3_v0_apply,
    val_main_v35_apply, (show idx_main_v35 (idx_main_call3_v0 (ix2 r k)) = ix1 r from eq_ix1 _), v30_at, pos_ref,
    v41_at, val_main_call4_v1_apply, val_main_call4_v0_apply, val_main_cst_9_apply]
  rfl

end Cert.ReferenceIdeal.Hand

end
-- ==== Proof.RefB2.lean ====
import proofs.«144984_j9225589752058_1_alg».proof.Proof.RefA

noncomputable section

namespace Cert.ReferenceIdeal.Hand

open Cert.ReferenceIdeal Cert.ReferenceIdeal.Read
open Idealize.ShloMosaic Idealize.ShloMosaic.ValueIdx
open scoped Classical

variable (x0 : (⟨S8192x128, .f32⟩ : BufTy).Contents (Elt Ideal)) (x1 : (⟨S8192, .i32⟩ : BufTy).Contents (Elt Ideal))

private theorem v24_pt_b2 (r c : Fin 8192) : val_main_v24 (F := Ideal) x0 x1 (ix2 r c)
    = if Cert.Spec.negHard (embR x0) (labR x1) (labR x1) (Cert.Spec.posMin (embR x0) (labR x1) (labR x1)) r c then (1#1 : BitVec 1) else 0#1 := by
  rw [val_main_v24_apply, neg_ref, val_main_v23_apply, val_main_v20_apply, val_main_v19_apply, val_main_cst_3_apply,
    val_main_v22_apply, val_main_v21_apply, (show idx_main_v21 (idx_main_v22 (ix2 r c)) = ix1 r from eq_ix1 _), sim_ref, posmin_ref]
  exact andi_bit _ _

private theorem v31_pt_b2 (r : Fin 8192) : val_main_v31 (F := Ideal) x0 x1 (ix1 r)
    = if ∃ c, Cert.Spec.negHard (embR x0) (labR x1) (labR x1) (Cert.Spec.posMin (embR x0) (labR x1) (labR x1)) r c = true
      then (1#1 : BitVec 1) else 0#1 := by
  unfold val_main_v31
  exact or_row _ _ _ _ _ rfl (v24_pt_b2 x0 x1) r

private theorem v51_pt_b2 (r c : Fin 8192) : val_main_v51 (F := Ideal) x0 (ix2 r c) = Cert.Spec.eNeg (embR x0) r c := by
  rw [val_main_v51_apply, val_main_v50_apply, val_main_v49_apply, val_main_cst_13_apply, val_main_v48_apply,
    val_main_v47_apply, val_main_cst_12_apply, sim_ref]
  rfl

theorem negsum_ref (r : Fin 8192) : val_main_v53 (F := Ideal) x0 x1 (ix1 r)
    = Cert.Spec.negSum (embR x0) (labR x1) (labR x1) (Cert.Spec.posMin (embR x0) (labR x1) (labR x1)) r := by
  unfold Cert.Spec.negSum Cert.Spec.negHardSum Cert.Spec.negAllSum
  refine Eq.trans ?_ (sum_select_mask _ _ _ _ Ideal.ofBits_zero_f32 _ (v31_pt_b2 x0 x1 r))
  rw [val_main_v53_apply, val_main_cst_15_apply]
  refine congrArg (_ + ·) (Finset.sum_congr rfl fun k _ => ?_)
  rw [(show idx_main_v53 (ix1 r) k = ix2 r k from eq_ix2 _), val_main_v52_apply, val_main_v33_apply, val_main_call2_v0_apply,
    val_main_v32_apply, (show idx_main_v32 (idx_main_call2_v0 (ix2 r k)) = ix1 r from eq_ix1 _), v24_pt_b2, neg_ref,
    v51_pt_b2, val_main_call5_v1_apply, val_main_call5_v0_apply, val_main_cst_14_apply]
  rfl

end Cert.ReferenceIdeal.Hand

end
-- ==== Proof.RefC.lean ====
import proofs.«144984_j9225589752058_1_alg».proof.Proof.RefA
import Idealize.ShloMosaic.Lib.ValueIdxRank1
import Idealize.ShloMosaic.Lib.IdealHost

noncomputable section

namespace Cert.ReferenceIdeal.Hand

open Cert.ReferenceIdeal Cert.ReferenceIdeal.Read
open Idealize.ShloMosaic Idealize.ShloMosaic.ValueIdx
open scoped Classical

variable (x0 : (⟨S8192x128, .f32⟩ : BufTy).Contents (Elt Ideal)) (x1 : (⟨S8192, .i32⟩ : BufTy).Contents (Elt Ideal))

private theorem sum_idx1 {M : Type} [AddCommMonoid M] (g : S8192.Idx → M) : ∑ j, g j = ∑ r : Fin 8192, g (ix1 r) :=
  (Equiv.sum_comp idxEquiv1.symm g).symm

theorem valid_ref (r : Fin 8192) : val_main_v59 (F := Ideal) x1 (ix1 r) = (if Cert.Spec.validR (labR x1) (labR x1) r then (1#1 : BitVec 1) else 0#1) := by
  rw [val_main_v59_apply]
  unfold val_main_v57 val_main_v58 Cert.Spec.validR
  rw [or_row _ _ _ _ _ rfl (pos_ref x1) r, or_row _ _ _ _ _ rfl (neg_ref x1) r]
  by_cases hA : ∃ c, Cert.Spec.pos (labR x1) (labR x1) r c = true <;>
    by_cases hB : ∃ c, Cert.Spec.neg (labR x1) (labR x1) r c = true <;> simp [hA, hB] <;> rfl

theorem rowloss_ref_of (P N : Fin 8192 → EReal)
    (hP : ∀ r, val_main_v43 (F := Ideal) x0 x1 (ix1 r) = P r) (hN : ∀ r, val_main_v53 (F := Ideal) x0 x1 (ix1 r) = N r) (r : Fin 8192) :
    val_main_v60 (F := Ideal) x0 x1 (ix1 r)
      = Ideal.div (Ideal.log1p (P r)) (Cert.Spec.lit 0x40000000#32) + Ideal.div (Ideal.log1p (N r)) (Cert.Spec.lit 0x42480000#32) := by
  rw [val_main_v60_apply, val_main_v46_apply, val_main_v56_apply, val_main_v44_apply, val_main_v54_apply,
    val_main_v45_apply, val_main_v55_apply, val_main_cst_11_apply, val_main_cst_16_apply, hP, hN]
  rfl

private theorem v61_at (r : Fin 8192) :
    val_main_v61 (F := Ideal) x1 (ix1 r) = if Cert.Spec.validR (labR x1) (labR x1) r then (1 : EReal) else 0 := by
  rw [val_main_v61_apply, valid_ref]
  cases Cert.Spec.validR (labR x1) (labR x1) r
  · show (((0#1 : BitVec 1).toNat : ℝ) : EReal) = 0; norm_num
  · show (((1#1 : BitVec 1).toNat : ℝ) : EReal) = 1; norm_num

private theorem v64_at (L : Fin 8192 → EReal) (hL : ∀ r, val_main_v60 (F := Ideal) x0 x1 (ix1 r) = L r) (r : Fin 8192) :
    val_main_v64 (F := Ideal) x0 x1 (ix1 r) = if Cert.Spec.validR (labR x1) (labR x1) r then L r else 0 := by
  rw [val_main_v64_apply, valid_ref, hL, val_main_call6_v1_apply, val_main_call6_v0_apply, val_main_cst_21_apply,
    select_bit, Ideal.ofBits_def, Ideal.ofBits_zero_f32]

theorem total_ref_of (L : Fin 8192 → EReal) (hL : ∀ r, val_main_v60 (F := Ideal) x0 x1 (ix1 r) = L r) :
    val_main_v66 (F := Ideal) x0 x1 ix0 = Cert.Spec.total L (Cert.Spec.validR (labR x1) (labR x1)) := by
  rw [val_main_v66_apply, val_main_v65_apply, val_main_v63_apply, val_main_v62_apply, val_main_cst_20_apply,
    val_main_cst_22_apply, val_main_cst_19_apply, sum_idx1, sum_idx1]
  simp only [v64_at x0 x1 L hL, v61_at x1, Ideal.hostDivf_def, Ideal.maximumf_def, Ideal.ofBits_def,
    Ideal.ofBits_zero_f32, Ideal.ofBits_one_f32, zero_add]
  rfl

end Cert.ReferenceIdeal.Hand

end
-- ==== Proof.RefValue.lean ====
import proofs.«144984_j9225589752058_1_alg».proof.Proof.RefB1
import proofs.«144984_j9225589752058_1_alg».proof.Proof.RefB2
import proofs.«144984_j9225589752058_1_alg».proof.Proof.RefC

noncomputable section

namespace Cert.ReferenceIdeal.Hand

open Cert.ReferenceIdeal Cert.ReferenceIdeal.Read
open Idealize.ShloMosaic Idealize.ShloMosaic.ValueIdx

variable (x0 : (⟨S8192x128, .f32⟩ : BufTy).Contents (Elt Ideal)) (x1 : (⟨S8192, .i32⟩ : BufTy).Contents (Elt Ideal))

theorem ref_value : val_main_v66 (F := Ideal) x0 x1 = fun _ => Cert.Spec.lossR (embR x0) (labR x1) := by
  funext i
  rw [eq_ix0 i]
  exact total_ref_of x0 x1 _ (fun r => rowloss_ref_of x0 x1 _ _ (possum_ref x0 x1) (negsum_ref x0 x1) r)

end Cert.ReferenceIdeal.Hand

end
-- ==== Proof.Bridge.lean ====
import proofs.«144984_j9225589752058_1_alg».proof.Proof.Spec
import Mathlib.Data.EReal.Basic
import Mathlib.Data.EReal.Operations

noncomputable section

namespace Cert.Spec

open scoped Classical

section
variable (e : Fin 8192 → Fin 128 → EReal) (l : Fin 8192 → BitVec 32) (hfin : ∀ r k, e r k ≠ ⊤ ∧ e r k ≠ ⊥)
include hfin

-- A finite sum of products of real numbers is a real number.
theorem sim_finite (r c : Fin 8192) : sim e r c ≠ ⊤ ∧ sim e r c ≠ ⊥ := by
  obtain ⟨y, hy⟩ : ∃ y : ℝ, ∑ k : Fin 128, e r k * e c k = y := Finset.sum_induction (fun k => e r k * e c k) (fun x : EReal => ∃ y : ℝ, x = y)
    (fun _ _ ⟨a, ha⟩ ⟨b, hb⟩ => ⟨a + b, by rw [ha, hb, EReal.coe_add]⟩) ⟨0, rfl⟩ fun k _ =>
    ⟨(e r k).toReal * (e c k).toReal, by rw [EReal.coe_mul, EReal.coe_toReal (hfin r k).1 (hfin r k).2, EReal.coe_toReal (hfin c k).1 (hfin c k).2]⟩
  rw [sim, hy]
  exact ⟨EReal.coe_ne_top _, EReal.coe_ne_bot _⟩

-- An infimum of finite similarities over the positives is +∞ only when there is no positive; dually for the negatives.
theorem validK_eq_validR (r : Fin 8192) : validK (posMin e l l) (negMax e l l) r = validR l l r := by
  have h1 : posMin e l l r ≠ ⊤ ↔ ∃ c, pos l l r c = true := by
    simp only [posMin, Ne, Finset.inf_eq_top_iff, Finset.mem_univ, true_imp_iff, ite_eq_right_iff, not_forall, Classical.not_imp, exists_prop]
    exact exists_congr fun c => and_iff_left (sim_finite e hfin r c).1
  have h2 : negMax e l l r ≠ ⊥ ↔ ∃ c, neg l l r c = true := by
    simp only [negMax, Ne, Finset.sup_eq_bot_iff, Finset.mem_univ, true_imp_iff, ite_eq_right_iff, not_forall, Classical.not_imp, exists_prop]
    exact exists_congr fun c => and_iff_left (sim_finite e hfin r c).2
  unfold validK validR
  rw [decide_eq_decide.mpr h1, decide_eq_decide.mpr h2]

end

theorem lossK_eq_lossR (e : Fin 8192 → Fin 128 → EReal) (l : Fin 8192 → BitVec 32) (hfin : ∀ r k, e r k ≠ ⊤ ∧ e r k ≠ ⊥) :
    lossK e l = lossR e l := by
  unfold lossK lossR
  rw [funext (validK_eq_validR e l hfin)]

end Cert.Spec

end
-- ==== Proof.Finite.lean ====
import proofs.«144984_j9225589752058_1_alg».proof.Pre_finite_inputs
import proofs.«144984_j9225589752058_1_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Hand

open Idealize.ShloMosaic Idealize.ShloMosaic.ValueIdx

-- If the greater of x and -x is below +∞ then x is neither infinity.
private theorem finite_of_abs_lt_inf (x : EReal)
    (h : Ideal.cmp .olt (max x (-x)) (Ideal.ofBits .f32 0x7F800000#32) = 1#1) : x ≠ ⊤ ∧ x ≠ ⊥ := by
  rw [show Ideal.ofBits .f32 0x7F800000#32 = ⊤ by simp [Ideal.ofBits, Ideal.ieee]] at h
  have hlt : max x (-x) < ⊤ := by by_contra hn; simp [Ideal.cmp, hn] at h
  induction x using EReal.rec <;> simp at hlt ⊢

-- A conjunction over all entries that holds, holds at each entry.
theorem finite_of_pre [Cert.Pre_finite_inputs.Facts] (x0 : FVec Ideal Cert.Pre_finite_inputs.S8192x128 .f32) (x1 : IVec Cert.Pre_finite_inputs.S8192 32)
    (h : Cert.Pre_finite_inputs.fn (F := Ideal) x0 x1 = fun _ => 1#1) (r : Fin 8192) (k : Fin 128) :
    x0 (ix2 r k) ≠ ⊤ ∧ x0 (ix2 r k) ≠ ⊥ := by
  have h0 := congrFun h ValueIdx.ix0
  dsimp only [Cert.Pre_finite_inputs.fn] at h0
  haveI : Subsingleton Cert.Pre_finite_inputs.S_.Idx := ⟨fun a b => funext fun d => d.elim0⟩
  exact finite_of_abs_lt_inf _ (Host.reduce_andi_all _ _ _ _ _ h0 (ix2 r k))

end Cert.Pre_finite_inputs.Hand

end
-- ==== Proof.lean ====
import proofs.«144984_j9225589752058_1_alg».proof.Defs
import proofs.«144984_j9225589752058_1_alg».proof.Proof.Gen.Kernel
import proofs.«144984_j9225589752058_1_alg».proof.Proof.Gen.KernelIdeal
import proofs.«144984_j9225589752058_1_alg».proof.Proof.Gen.ReferenceIdeal
import proofs.«144984_j9225589752058_1_alg».proof.Proof.Gen.Pre_finite_inputs
import proofs.«144984_j9225589752058_1_alg».proof.Proof.KRun
import proofs.«144984_j9225589752058_1_alg».proof.Proof.Run
import proofs.«144984_j9225589752058_1_alg».proof.Proof.KernelValue
import proofs.«144984_j9225589752058_1_alg».proof.Proof.RefFrame
import proofs.«144984_j9225589752058_1_alg».proof.Proof.RefRunVal
import proofs.«144984_j9225589752058_1_alg».proof.Proof.RefValue
import proofs.«144984_j9225589752058_1_alg».proof.Proof.Bridge
import proofs.«144984_j9225589752058_1_alg».proof.Proof.Finite
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ => Cert.ReferenceIdeal.Hand.frame_ri m ρ

theorem preserves : Cert.preserves_Kernel_KernelIdeal := trivial

theorem emb_finite (m : (ℓ : Loc Cert.KernelIdeal.nD Cert.KernelIdeal.τ Cert.KernelIdeal.sig) → Buf (Elt Ideal) ℓ) (h : Cert.Pre_KernelIdeal m) (c : Dev Cert.KernelIdeal.nD)
    (r : Fin 8192) (k : Fin 128) : Cert.KernelIdeal.Hand.embM m c r k ≠ ⊤ ∧ Cert.KernelIdeal.Hand.embM m c r k ≠ ⊥ :=
  Cert.Pre_finite_inputs.Hand.finite_of_pre _ _ (h c) r k

/-- Both runs end at the specification's loss of the launch arrays; on finite embeddings its two forms agree. -/
theorem algebraic : Cert.algebraic_KernelIdeal_ReferenceIdeal := by
  intro m ρ m' ρ' hpre hagree
  refine ⟨fun c => (fun _ => Cert.Spec.lossK (Cert.KernelIdeal.Hand.embM m c) (Cert.KernelIdeal.Hand.labM m c)), ?_, ?_⟩
  · refine (θ_run Cert.KernelIdeal.defs _ _).mono (fun r h c => ⟨?_, ?_, ?_⟩) (Cert.KernelIdeal.Hand.run_main (F := Ideal) m ρ)
    · exact (h c _ (Cert.KernelIdeal.Hand.mem_uc Cert.KernelIdeal.main_v7 (by decide))).trans (Cert.KernelIdeal.Hand.kernel_value m c)
    · exact (h c _ (Cert.KernelIdeal.Hand.mem_uc Cert.KernelIdeal.main_arg0 (by decide))).trans (Cert.KernelIdeal.Hand.Wfin_arg0 m c)
    · exact (h c _ (Cert.KernelIdeal.Hand.mem_uc Cert.KernelIdeal.main_arg1 (by decide))).trans (Cert.KernelIdeal.Hand.Wfin_arg1 m c)
  · refine (θ_run Cert.ReferenceIdeal.defs _ _).mono (fun r h c => ⟨(h c).1.trans ?_, (h c).2⟩) (Cert.ReferenceIdeal.Hand.ref_run (F := Ideal) m' ρ')
    rw [(hagree c).1, (hagree c).2, Cert.ReferenceIdeal.Hand.ref_value]
    funext _
    exact (Cert.Spec.lossK_eq_lossR _ _ (emb_finite m hpre c)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
